-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x64 : Shape := ⟨3, ![8, 10000, 64]⟩
abbrev S64x64 : Shape := ⟨2, ![64, 64]⟩
abbrev S160000 : Shape := ⟨1, ![160000]⟩
abbrev S_ : Shape := ⟨0, ![]⟩

class Facts : Prop where
  bcast_S_S8x10000x64 : S_.BroadcastsInDim S8x10000x64 (![] : Fin 0 → Fin S8x10000x64.rank)
  reducesTo_S8x10000x64_S_d0_1_2 : S8x10000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg6 : IVec S160000 32) (main_v31 : IVec S_ 1) (main_v32 : IVec S160000 32) : IVec S_ 1 :=
  let main_v33 : IVec S160000 1 := cmpi .sge main_arg6 main_v32
  let main_c_13 : IVec S_ 1 := constantI S_ 1 1#1
  let main_v34 : IVec S_ 1 := (fun x v => Host.reduce IntOp.andi x v reducesTo_S160000_S_d0 h_S_) main_v33 main_c_13
  let main_v35 : IVec S_ 1 := andi main_v31 main_v34
  let main_c_14 : IVec S_ 32 := constantI S_ 32 10000#32
  let main_v36 : IVec S160000 32 := broadcastInDim S160000 ![] bcast_S_S160000 main_c_14
  let main_v37 : IVec S160000 1 := cmpi .slt main_arg6 main_v36
  let main_c_15 : IVec S_ 1 := constantI S_ 1 1#1
  let main_v38 : IVec S_ 1 := (fun x v => Host.reduce IntOp.andi x v reducesTo_S160000_S_d0 h_S_) main_v37 main_c_15
  let main_v39 : IVec S_ 1 := andi main_v35 main_v38
  main_v39

def fn_part1 {F : FTy → Type} [FloatOps F] (main_arg4 : FVec F S160000 .f32) (main_arg5 : IVec S160000 32) (main_arg6 : IVec S160000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S160000 .f32 := Host.absf main_arg4
  let main_cst_6 : FVec F S_ .f32 := constant S_ .f32 0x7F800000#32
  let main_v20 : FVec F S160000 .f32 := broadcastInDim S160000 ![] bcast_S_S160000 main_cst_6
  let main_v21 : IVec S160000 1 := cmpf .olt main_v19 main_v20
  let main_c_7 : IVec S_ 1 := constantI S_ 1 1#1
  let main_v22 : IVec S_ 1 := (fun x v => Host.reduce IntOp.andi x v reducesTo_S160000_S_d0 h_S_) main_v21 main_c_7
  let main_v23 : IVec S_ 1 := andi main_v18 main_v22
  let main_c_8 : IVec S_ 32 := constantI S_ 32 0#32
  let main_v24 : IVec S160000 32 := broadcastInDim S160000 ![] bcast_S_S160000 main_c_8
  let main_v25 : IVec S160000 1 := cmpi .sge main_arg5 main_v24
  let main_c_9 : IVec S_ 1 := constantI S_ 1 1#1
  let main_v26 : IVec S_ 1 := (fun x v => Host.reduce IntOp.andi x v reducesTo_S160000_S_d0 h_S_) main_v25 main_c_9
  let main_v27 : IVec S_ 1 := andi main_v23 main_v26
  let main_c_10 : IVec S_ 32 := constantI S_ 32 10000#32
  let main_v28 : IVec S160000 32 := broadcastInDim S160000 ![] bcast_S_S160000 main_c_10
  let main_v29 : IVec S160000 1 := cmpi .slt main_arg5 main_v28
  let main_c_11 : IVec S_ 1 := constantI S_ 1 1#1
  let main_v30 : IVec S_ 1 := (fun x v => Host.reduce IntOp.andi x v reducesTo_S160000_S_d0 h_S_) main_v29 main_c_11
  let main_v31 : IVec S_ 1 := andi main_v27 main_v30
  let main_c_12 : IVec S_ 32 := constantI S_ 32 0#32
  let main_v32 : IVec S160000 32 := broadcastInDim S160000 ![] bcast_S_S160000 main_c_12
  fn_part2 (F := F) main_arg6 main_v31 main_v32

def fn {F : FTy → Type} [FloatOps F] (main_arg0 : FVec F S8x10000x64 .f32) (main_arg1 : FVec F S64x64 .f32) (main_arg2 : FVec F S64x64 .f32) (main_arg3 : FVec F S64x64 .f32) (main_arg4 : FVec F S160000 .f32) (main_arg5 : IVec S160000 32) (main_arg6 : IVec S160000 32) : IVec S_ 1 :=
  let main_v0 : FVec F S8x10000x64 .f32 := Host.absf main_arg0
  let main_cst : FVec F S_ .f32 := constant S_ .f32 0x7F800000#32
  let main_v1 : FVec F S8x10000x64 .f32 := broadcastInDim S8x10000x64 ![] bcast_S_S8x10000x64 main_cst
  let main_v2 : IVec S8x10000x64 1 := cmpf .olt main_v0 main_v1
  let main_c : IVec S_ 1 := constantI S_ 1 1#1
  let main_v3 : IVec S_ 1 := (fun x v => Host.reduce IntOp.andi x v reducesTo_S8x10000x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S8x10000x64 : Shape := ⟨3, ![8, 10000, 64]⟩
abbrev S64x64 : Shape := ⟨2, ![64, 64]⟩
abbrev S160000 : Shape := ⟨1, ![160000]⟩
abbrev S_ : Shape := ⟨0, ![]⟩
abbrev S8x10112x64 : Shape := ⟨3, ![8, 10112, 64]⟩
abbrev S10112x10112 : Shape := ⟨2, ![10112, 10112]⟩
abbrev S160000x1 : Shape := ⟨2, ![160000, 1]⟩
abbrev S160000x2 : Shape := ⟨2, ![160000, 2]⟩
abbrev S10112x128 : Shape := ⟨2, ![10112, 128]⟩
abbrev S1x128x64 : Shape := ⟨3, ![1, 128, 64]⟩
abbrev S1x10112x64 : Shape := ⟨3, ![1, 10112, 64]⟩
abbrev S10112x64 : Shape := ⟨2, ![10112, 64]⟩
abbrev S128x64 : Shape := ⟨2, ![128, 64]⟩

abbrev nBuf : Space → Nat
  | .hbm => 37
  | .vmem => 24
  | .smem => 0
  | _ => 0

abbrev bufTy : (tb : Table) → Fin (tcTables nBuf tb) → BufTy
  | .hbm, ⟨0, _⟩ => ⟨S8x10000x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S160000, .f32⟩
  | .hbm, ⟨5, _⟩ => ⟨S160000, .i32⟩
  | .hbm, ⟨6, _⟩ => ⟨S160000, .i32⟩
  | .hbm, ⟨7, _⟩ => ⟨S_, .i32⟩
  | .hbm, ⟨8, _⟩ => ⟨S_, .f32⟩
  | .hbm, ⟨9, _⟩ => ⟨S8x10112x64, .f32⟩
  | .hbm, ⟨10, _⟩ => ⟨S_, .f32⟩
  | .hbm, ⟨11, _⟩ => ⟨S10112x10112, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x1, .i32⟩
  | .hbm, ⟨28, _⟩ => ⟨S160000x2, .i32⟩
  | .hbm, ⟨29, _⟩ => ⟨S10112x10112, .f32⟩
  | .hbm, ⟨30, _⟩ => ⟨S64x64, .f32⟩
  | .hbm, ⟨31, _⟩ => ⟨S8x10112x64, .f32⟩
  | .hbm, ⟨32, _⟩ => ⟨S64x64, .f32⟩
  | .hbm, ⟨33, _⟩ => ⟨S8x10112x64, .f32⟩
  | .hbm, ⟨34, _⟩ => ⟨S64x64, .f32⟩
  | .hbm, ⟨35, _⟩ => ⟨S8x10112x64, .f32⟩
  | .hbm, ⟨36, _⟩ => ⟨S8x10000x64, .f32⟩
  | .local _ .vmem, ⟨0, _⟩ => ⟨S10112x128, .f32⟩
  | .local _ .vmem, ⟨1, _⟩ => ⟨S10112x128, .f32⟩
  | .local _ .vmem, ⟨2, _⟩ => ⟨S1x128x64, .f32⟩
  | .local _ .vmem, ⟨3, _⟩ => ⟨S1x128x64, .f32⟩
  | .local _ .vmem, ⟨4, _⟩ => ⟨S64x64, .f32⟩
  | .local _ .vmem, ⟨5, _⟩ => ⟨S1x10112x64, .f32⟩
  | .local _ .vmem, ⟨6, _⟩ => ⟨S1x10112x64, .f32⟩
  | .local _ .vmem, ⟨7, _⟩ => ⟨S10112x64, .f32⟩
  | .local _ .vmem, ⟨8, _⟩ => ⟨S10112x128, .f32⟩
  | .local _ .vmem, ⟨9, _⟩ => ⟨S10112x128, .f32⟩
  | .local _ .vmem, ⟨10, _⟩ => ⟨S1x128x64, .f32⟩
  | .local _ .vmem, ⟨11, _⟩ => ⟨S1x128x64, .f32⟩
  | .local _ .vmem, ⟨12, _⟩ => ⟨S64x64, .f32⟩
  | .local _ .vmem, ⟨13, _⟩ => ⟨S1x10112x64, .f32⟩
  | .local _ .vmem, ⟨14, _⟩ => ⟨S1x10112x64, .f32⟩
  | .local _ .vmem, ⟨15, _⟩ => ⟨S10112x64, .f32⟩
  | .local _ .vmem, ⟨16, _⟩ => ⟨S10112x128, .f32⟩
  | .local _ .vmem, ⟨17, _⟩ => ⟨S10112x128, .f32⟩
  | .local _ .vmem, ⟨18, _⟩ => ⟨S1x128x64, .f32⟩
  | .local _ .vmem, ⟨19, _⟩ => ⟨S1x128x64, .f32⟩
  | .local _ .vmem, ⟨20, _⟩ => ⟨S64x64, .f32⟩
  | .local _ .vmem, ⟨21, _⟩ => ⟨S1x10112x64, .f32⟩
  | .local _ .vmem, ⟨22, _⟩ => ⟨S1x10112x64, .f32⟩
  | .local _ .vmem, ⟨23, _⟩ => ⟨S10112x64, .f32⟩
  | _, _ => ⟨S8x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 79], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10112x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 79], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10112x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x10112x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 79], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10112x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x10112x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  pads_S8x10000x64_S8x10112x64_000_01120_000 : S8x10000x64.Pads (![0, 0, 0] : Fin 3 → Nat) ![0, 112, 0] ![0, 0, 0] S8x10112x64
  h_S_ : 0 < S_.numel
  bcast_S_S10112x10112 : S_.BroadcastsInDim S10112x10112 (![] : Fin 0 → Fin S10112x10112.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  transposes_S64x64_S64x64_1_0 : S64x64.Transposes [1, 0] S64x64
  inb_S10112x64_S10112x64_0_0 : ∀ a, (![0, 0] : Fin 2 → Nat) a + S10112x64.size a ≤ S10112x64.size a
  h_S10112x64 : 0 < S10112x64.numel
  shapeCasts_S10112x64_S10112x64 : S10112x64.ShapeCasts S10112x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x10112x64_S1x10112x64_0_0_0 : ∀ a, (![0, 0, 0] : Fin 3 → Nat) a + S1x10112x64.size a ≤ S1x10112x64.size a
  h_S1x10112x64 : 0 < S1x10112x64.numel
  shapeCasts_S1x10112x64_S10112x64 : S1x10112x64.ShapeCasts S10112x64
  shapeCasts_S10112x64_S1x10112x64 : S10112x64.ShapeCasts S1x10112x64
  slices_S8x10112x64_S8x10000x64_0_0_0 : S8x10112x64.Slices ![0, 0, 0] S8x10000x64
  scatter_S10112x10112_S160000x2_S160000_n_01_01_1_wf : ScatterDims.WF S10112x10112 S160000x2 S160000 [] [0, 1] [0, 1] 1
  dot_S128x64_S64x64_S128x64_1_0_0_1_n_n_wf : DotDims.WF S128x64 S64x64 S128x64 [1] [0] [0] [1] [] []
  dot_S10112x128_S128x64_S10112x64_1_0_0_1_n_n_wf : DotDims.WF S10112x128 S128x64 S10112x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10112x128.size a ≤ S10112x10112.size a
  hwx0_0 : ∀ i : grid0.Coords, EltTy.bits .f32 = 32 ∨ (Rect.block (s := S10112x10112) S10112x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S8x10112x64.size a
  hwx0_1 : ∀ i : grid0.Coords, EltTy.bits .f32 = 32 ∨ (Rect.block (s := S8x10112x64) S1x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10112x64.size a ≤ S8x10112x64.size a
  hwx0_3 : ∀ i : grid0.Coords, EltTy.bits .f32 = 32 ∨ (Rect.block (s := S8x10112x64) S1x10112x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10112x128.size a ≤ S10112x10112.size a
  hwx1_0 : ∀ i : grid1.Coords, EltTy.bits .f32 = 32 ∨ (Rect.block (s := S10112x10112) S10112x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S8x10112x64.size a
  hwx1_1 : ∀ i : grid1.Coords, EltTy.bits .f32 = 32 ∨ (Rect.block (s := S8x10112x64) S1x128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x10112x64.size a ≤ S8x10112x64.size a
  hwx1_3 : ∀ i : grid1.Coords, EltTy.bits .f32 = 32 ∨ (Rect.block (s := S8x10112x64) S1x10112x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10112x128.size a ≤ S10112x10112.size a
  hwx2_0 : ∀ i : grid2.Coords, EltTy.bits .f32 = 32 ∨ (Rect.block (s := S10112x10112) S10112x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x64.size a ≤ S8x10112x64.size a
  hwx2_1 : ∀ i : grid2.Coords, EltTy.bits .f32 = 32 ∨ (Rect.block (s := S8x10112x64) S1x128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x10112x64.size a ≤ S8x10112x64.size a
  hwx2_3 : ∀ i : grid2.Coords, EltTy.bits .f32 = 32 ∨ (Rect.block (s := S8x10112x64) S1x10112x64.size (cc2_transform_3 i) (hinb2_3 i)).WholeWords (EltTy.packing .f32)

variable [Facts₀]

def scatter_S10112x10112_S160000x2_S160000_n_01_01_1 : ScatterDims S10112x10112 S160000x2 S160000 where
  updateWindowDims := []
  insertedWindowDims := [0, 1]
  scatterDimsToOperandDims := [0, 1]
  indexVectorDim := 1
  wf := scatter_S10112x10112_S160000x2_S160000_n_01_01_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S10112x128_S128x64_S10112x64_1_0_0_1_n_n : DotDims S10112x128 S128x64 S10112x64 where
  lhsContracting := [1]
  rhsContracting := [0]
  lhsNonContracting := [0]
  rhsNonContracting := [1]
  lhsBatch := []
  rhsBatch := []
  wf := dot_S10112x128_S128x64_S10112x64_1_0_0_1_n_n_wf

abbrev win0_0 : Pipeline.Window sig grid0 :=
  Pipeline.Window.ofSpec (Memref.whole main_v15) S10112x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x10112x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S10112x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x10112x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S10112x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x10112x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x10000x64 : Shape := ⟨3, ![8, 10000, 64]⟩
abbrev S64x64 : Shape := ⟨2, ![64, 64]⟩
abbrev S160000 : Shape := ⟨1, ![160000]⟩
abbrev S_ : Shape := ⟨0, ![]⟩
abbrev S160000x1 : Shape := ⟨2, ![160000, 1]⟩
abbrev S8x160000x64 : Shape := ⟨3, ![8, 160000, 64]⟩
abbrev S1x160000x1 : Shape := ⟨3, ![1, 160000, 1]⟩

abbrev nBuf : Space → Nat
  | .hbm => 91
  | .vmem => 0
  | .smem => 0
  | _ => 0

abbrev bufTy : (tb : Table) → Fin (tcTables nBuf tb) → BufTy
  | .hbm, ⟨0, _⟩ => ⟨S8x10000x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S160000, .f32⟩
  | .hbm, ⟨5, _⟩ => ⟨S160000, .i32⟩
  | .hbm, ⟨6, _⟩ => ⟨S160000, .i32⟩
  | .hbm, ⟨7, _⟩ => ⟨S64x64, .f32⟩
  | .hbm, ⟨8, _⟩ => ⟨S8x10000x64, .f32⟩
  | .hbm, ⟨9, _⟩ => ⟨S_, .f32⟩
  | .hbm, ⟨10, _⟩ => ⟨S8x10000x64, .f32⟩
  | .hbm, ⟨11, _⟩ => ⟨S8x10000x64, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S8x160000x64, .f32⟩
  | .hbm, ⟨21, _⟩ => ⟨S1x160000x1, .f32⟩
  | .hbm, ⟨22, _⟩ => ⟨S8x160000x64, .f32⟩
  | .hbm, ⟨23, _⟩ => ⟨S8x160000x64, .f32⟩
  | .hbm, ⟨24, _⟩ => ⟨S_, .f32⟩
  | .hbm, ⟨25, _⟩ => ⟨S8x10000x64, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S8x10000x64, .f32⟩
  | .hbm, ⟨35, _⟩ => ⟨S64x64, .f32⟩
  | .hbm, ⟨36, _⟩ => ⟨S8x10000x64, .f32⟩
  | .hbm, ⟨37, _⟩ => ⟨S_, .f32⟩
  | .hbm, ⟨38, _⟩ => ⟨S8x10000x64, .f32⟩
  | .hbm, ⟨39, _⟩ => ⟨S8x10000x64, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S8x160000x64, .f32⟩
  | .hbm, ⟨49, _⟩ => ⟨S1x160000x1, .f32⟩
  | .hbm, ⟨50, _⟩ => ⟨S8x160000x64, .f32⟩
  | .hbm, ⟨51, _⟩ => ⟨S8x160000x64, .f32⟩
  | .hbm, ⟨52, _⟩ => ⟨S_, .f32⟩
  | .hbm, ⟨53, _⟩ => ⟨S8x10000x64, .f32⟩
  | .hbm, ⟨54, _⟩ => ⟨S_, .i32⟩
  | .hbm, ⟨55, _⟩ => ⟨S160000, .i32⟩
  | .hbm, ⟨56, _⟩ => ⟨S160000, .i1⟩
  | .hbm, ⟨57, _⟩ => ⟨S_, .i32⟩
  | .hbm, ⟨58, _⟩ => ⟨S160000, .i32⟩
  | .hbm, ⟨59, _⟩ => ⟨S160000, .i32⟩
  | .hbm, ⟨60, _⟩ => ⟨S160000, .i32⟩
  | .hbm, ⟨61, _⟩ => ⟨S160000x1, .i32⟩
  | .hbm, ⟨62, _⟩ => ⟨S8x10000x64, .f32⟩
  | .hbm, ⟨63, _⟩ => ⟨S64x64, .f32⟩
  | .hbm, ⟨64, _⟩ => ⟨S8x10000x64, .f32⟩
  | .hbm, ⟨65, _⟩ => ⟨S_, .f32⟩
  | .hbm, ⟨66, _⟩ => ⟨S8x10000x64, .f32⟩
  | .hbm, ⟨67, _⟩ => ⟨S8x10000x64, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S8x160000x64, .f32⟩
  | .hbm, ⟨77, _⟩ => ⟨S1x160000x1, .f32⟩
  | .hbm, ⟨78, _⟩ => ⟨S8x160000x64, .f32⟩
  | .hbm, ⟨79, _⟩ => ⟨S8x160000x64, .f32⟩
  | .hbm, ⟨80, _⟩ => ⟨S_, .f32⟩
  | .hbm, ⟨81, _⟩ => ⟨S8x10000x64, .f32⟩
  | .hbm, ⟨82, _⟩ => ⟨S_, .i32⟩
  | .hbm, ⟨83, _⟩ => ⟨S160000, .i32⟩
  | .hbm, ⟨84, _⟩ => ⟨S160000, .i1⟩
  | .hbm, ⟨85, _⟩ => ⟨S_, .i32⟩
  | .hbm, ⟨86, _⟩ => ⟨S160000, .i32⟩
  | .hbm, ⟨87, _⟩ => ⟨S160000, .i32⟩
  | .hbm, ⟨88, _⟩ => ⟨S160000, .i32⟩
  | .hbm, ⟨89, _⟩ => ⟨S160000x1, .i32⟩
  | .hbm, ⟨90, _⟩ => ⟨S8x10000x64, .f32⟩
  | _, _ => ⟨S8x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  transposes_S64x64_S64x64_1_0 : S64x64.Transposes [1, 0] S64x64
  bcast_S_S8x10000x64 : S_.BroadcastsInDim S8x10000x64 (![] : Fin 0 → Fin S8x10000x64.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000_S1x160000x1_1 : S160000.BroadcastsInDim S1x160000x1 (![1] : Fin 1 → Fin S1x160000x1.rank)
  bcast_S1x160000x1_S8x160000x64_0_1_2 : S1x160000x1.BroadcastsInDim S8x160000x64 (![0, 1, 2] : Fin 3 → Fin S8x160000x64.rank)
  dot_S8x10000x64_S64x64_S8x10000x64_2_0_01_1_n_n_wf : DotDims.WF S8x10000x64 S64x64 S8x10000x64 [2] [0] [0, 1] [1] [] []
  gather_S8x10000x64_S160000x1_S8x160000x64_02_1_n_n_1_1_8164_wf : GatherDims.WF S8x10000x64 S160000x1 S8x160000x64 [0, 2] [1] [] [1] [] 1 ![8, 1, 64]
  scatter_S8x10000x64_S160000x1_S8x160000x64_02_1_1_1_wf : ScatterDims.WF S8x10000x64 S160000x1 S8x160000x64 [0, 2] [1] [1] 1

variable [Facts₀]

def dot_S8x10000x64_S64x64_S8x10000x64_2_0_01_1_n_n : DotDims S8x10000x64 S64x64 S8x10000x64 where
  lhsContracting := [2]
  rhsContracting := [0]
  lhsNonContracting := [0, 1]
  rhsNonContracting := [1]
  lhsBatch := []
  rhsBatch := []
  wf := dot_S8x10000x64_S64x64_S8x10000x64_2_0_01_1_n_n_wf
def gather_S8x10000x64_S160000x1_S8x160000x64_02_1_n_n_1_1_8164 : GatherDims S8x10000x64 S160000x1 S8x160000x64 where
  offsetDims := [0, 2]
  collapsedSliceDims := [1]
  operandBatchingDims := []
  startIndicesBatchingDims := []
  startIndexMap := [1]
  indexVectorDim := 1
  sliceSizes := ![8, 1, 64]
  wf := gather_S8x10000x64_S160000x1_S8x160000x64_02_1_n_n_1_1_8164_wf
def scatter_S8x10000x64_S160000x1_S8x160000x64_02_1_1_1 : ScatterDims S8x10000x64 S160000x1 S8x160000x64 where
  updateWindowDims := [0, 2]
  insertedWindowDims := [1]
  scatterDimsToOperandDims := [1]
  indexVectorDim := 1
  wf := scatter_S8x10000x64_S160000x1_S8x160000x64_02_1_1_1_wf

class Facts : Prop extends Facts₀ where

variable [Facts]
-- ==== Proof.KBits.Body.lean ====
import proofs.«413038_j6820408066453_1_alg».proof.Proof.Gen.Kernel.Launch
import proofs.«413038_j6820408066453_1_alg».proof.Proof.Gen.Kernel.Skeleton
import proofs.«413038_j6820408066453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three launches call one kernel function: the three printed copies are the same term. -/
def layer := cc0__layer_kernel (F := F)
theorem cc0_is : cc0__layer_kernel (F := F) = layer := rfl
theorem cc1_is : cc1__layer_kernel (F := F) = layer := rfl
theorem cc2_is : cc2__layer_kernel (F := F) = layer := rfl

abbrev condI (i : grid0.Coords) : Prop := (Scalar.cmpi .ne (Scalar.extui (Scalar.cmpi .eq (BitVec.ofNat 32 (i 1).val) 0#32)) 0#32) = 1#1

theorem hcondI : ∀ t : Fin cfg0.N, condI (grid0.coords t) ↔ t.val % 79 = 0 :=
  (by decide +kernel : ∀ t : Fin grid0.N, condI (grid0.coords t) ↔ t.val % 79 = 0)

/-- A run of the body at whole memrefs: from the three input blocks, any output block and `P6` at the accumulator, it ends with the
    inputs as they were and the two written buffers holding the pieces `L5` and `LS`. -/
def RunsTo (c : Dev nD) (prog : Prog (TpuEff nD τ sig (Elt F) Λ₀ .tc) PUnit)
    (a2 : Memref sig .tc .vmem S10112x128 .f32) (a3 : Memref sig .tc .vmem S1x128x64 .f32) (a4 : Memref sig .tc .vmem S64x64 .f32)
    (a5 : Memref sig .tc .vmem S1x10112x64 .f32) (a6 : Memref sig .tc .vmem S10112x64 .f32)
    (x2 : Vec F S10112x128 .f32) (x3 : Vec F S1x128x64 .f32) (x4 : Vec F S64x64 .f32) (P6 : sProp 𝕄)
    (L5 : List (View.Piece (Elt F) S1x10112x64 .f32)) (LS : List (View.Piece (Elt F) S10112x64 .f32)) : Prop :=
  ∀ (E : Set ℕ) (K : PUnit → sProp 𝕄),
    iprop(owns (c : Thread nD τ) a2 fullShare x2 ∗ owns (c : Thread nD τ) a3 fullShare x3 ∗ owns (c : Thread nD τ) a4 fullShare x4
        ∗ (∃ d, owns (c : Thread nD τ) a5 fullShare d) ∗ P6
        ∗ (iprop(owns (c : Thread nD τ) a2 fullShare x2 ∗ owns (c : Thread nD τ) a3 fullShare x3 ∗ owns (c : Thread nD τ) a4 fullShare x4
            ∗ (∃ f, a5.view.loc (c : Thread nD τ) ↦[a5.view.set]{fullShare} a5.view.writes (Elt F) f L5)
            ∗ (∃ f, a6.view.loc (c : Thread nD τ) ↦[a6.view.set]{fullShare} a6.view.writes (Elt F) f LS)) -∗ K ⟨⟩))
      ⊢ wp frame (wpE (defs₀ (F := F)) Variants.none c none) E prog K

set_option maxHeartbeats 4000000 in
noncomputable def kernelRunA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i)
    (x2 : Vec F S10112x128 .f32) (x3 : Vec F S1x128x64 .f32) (x4 : Vec F S64x64 .f32) :
    Σ' (L5 : List (View.Piece (Elt F) S1x10112x64 .f32)), { LS : List (View.Piece (Elt F) S10112x64 .f32) //
      RunsTo c (layer i arg2 harg2 arg3 harg3 arg4 harg4 arg5 harg5 arg6 harg6) arg2 arg3 arg4 arg5 arg6 x2 x3 x4 iprop(∃ d, owns (c : Thread nD τ) arg6 fullShare d) L5 LS } := by
  refine ⟨?_, ?_, fun E K => ?run⟩
  case run =>
    unfold layer; simp only [cc0__layer_kernel_eq_skeleton]; unfold cc0__layer_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 4000000 in
noncomputable def kernelRunB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i)
    (x2 : Vec F S10112x128 .f32) (x3 : Vec F S1x128x64 .f32) (x4 : Vec F S64x64 .f32) (xs : Vec F S10112x64 .f32) :
    Σ' (L5 : List (View.Piece (Elt F) S1x10112x64 .f32)), { LS : List (View.Piece (Elt F) S10112x64 .f32) //
      RunsTo c (layer i arg2 harg2 arg3 harg3 arg4 harg4 arg5 harg5 arg6 harg6) arg2 arg3 arg4 arg5 arg6 x2 x3 x4 (owns (c : Thread nD τ) arg6 fullShare xs) L5 LS } := by
  refine ⟨?_, ?_, fun E K => ?run⟩
  case run =>
    unfold layer; simp only [cc0__layer_kernel_eq_skeleton]; unfold cc0__layer_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := harg2.eq_unread hf2; obtain rfl := harg3.eq_unread hf3; obtain rfl := harg4.eq_unread hf4; obtain rfl := harg6.eq_unread hf6
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

/-- Each run's pieces tile the whole output block and the whole accumulator. -/
theorem coverA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) (y : S1x10112x64.Idx) :
    ∃ pc ∈ (kernelRunA c i arg2 harg2 arg3 harg3 arg4 harg4 arg5 harg5 arg6 harg6 hc x2 x3 x4).1, y ∈ pc.1.set :=
  View.cover_of_tiledL (kernelRunA c i arg2 harg2 arg3 harg3 arg4 harg4 arg5 harg5 arg6 harg6 hc x2 x3 x4).1 S1x10112x64.size (by sl_kernel_rfl) y

theorem scoverA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) (y : S10112x64.Idx) :
    ∃ pc ∈ (kernelRunA c i arg2 harg2 arg3 harg3 arg4 harg4 arg5 harg5 arg6 harg6 hc x2 x3 x4).2.1, y ∈ pc.1.set :=
  View.cover_of_tiledL (kernelRunA c i arg2 harg2 arg3 harg3 arg4 harg4 arg5 harg5 arg6 harg6 hc x2 x3 x4).2.1 S10112x64.size (by sl_kernel_rfl) y

theorem coverB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) (y : S1x10112x64.Idx) :
    ∃ pc ∈ (kernelRunB c i arg2 harg2 arg3 harg3 arg4 harg4 arg5 harg5 arg6 harg6 hc x2 x3 x4 xs).1, y ∈ pc.1.set :=
  View.cover_of_tiledL (kernelRunB c i arg2 harg2 arg3 harg3 arg4 harg4 arg5 harg5 arg6 harg6 hc x2 x3 x4 xs).1 S1x10112x64.size (by sl_kernel_rfl) y

theorem scoverB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) (y : S10112x64.Idx) :
    ∃ pc ∈ (kernelRunB c i arg2 harg2 arg3 harg3 arg4 harg4 arg5 harg5 arg6 harg6 hc x2 x3 x4 xs).2.1, y ∈ pc.1.set :=
  View.cover_of_tiledL (kernelRunB c i arg2 harg2 arg3 harg3 arg4 harg4 arg5 harg5 arg6 harg6 hc x2 x3 x4 xs).2.1 S10112x64.size (by sl_kernel_rfl) y

/-- From a run of the body to a grid point's step: the three input blocks are unchanged, and the output block and the
    accumulator hold what the run's pieces cover them with; `Q6` is what the point finds in the accumulator. -/
theorem step_of_run {c : Dev nD} {prog : Prog (TpuEff nD τ sig (Elt F) Λ₀ .tc) PUnit}
    {a2 : Memref sig .tc .vmem S10112x128 .f32} {a3 : Memref sig .tc .vmem S1x128x64 .f32} {a4 : Memref sig .tc .vmem S64x64 .f32}
    {a5 : Memref sig .tc .vmem S1x10112x64 .f32} {a6 : Memref sig .tc .vmem S10112x64 .f32}
    {x2 : Vec F S10112x128 .f32} {x3 : Vec F S1x128x64 .f32} {x4 : Vec F S64x64 .f32}
    {L5 : List (View.Piece (Elt F) S1x10112x64 .f32)} {LS : List (View.Piece (Elt F) S10112x64 .f32)} {P6 : sProp 𝕄}
    (run : RunsTo c prog a2 a3 a4 a5 a6 x2 x3 x4 P6 L5 LS)
    (h5 : ∀ y, ∃ pc ∈ L5, y ∈ pc.1.set) (h6 : ∀ y, ∃ pc ∈ LS, y ∈ pc.1.set)
    {Q6 : sProp 𝕄} (hQ : Q6 ⊢ P6) (Rs Rg Ro : sProp 𝕄) {D0 D1 D2 D3 : Type} (bf : D3 → Vec F S1x10112x64 .f32) :
    iprop(((Q6 ∗ Rs) ∗ Rg) ∗ Ro ∗ (∃ _d : D0, owns (c : Thread nD τ) a2 fullShare x2) ∗ (∃ _d : D1, owns (c : Thread nD τ) a3 fullShare x3)
        ∗ (∃ _d : D2, owns (c : Thread nD τ) a4 fullShare x4) ∗ (∃ d : D3, owns (c : Thread nD τ) a5 fullShare (bf d)))
      ⊢ wp frame (wpE (defs₀ (F := F)) Variants.none c none) Set.univ prog (fun _ =>
          iprop(((owns (c : Thread nD τ) a6 fullShare (View.canon LS) ∗ Rs) ∗ Rg) ∗ Ro ∗ owns (c : Thread nD τ) a2 fullShare x2
            ∗ owns (c : Thread nD τ) a3 fullShare x3 ∗ owns (c : Thread nD τ) a4 fullShare x4 ∗ owns (c : Thread nD τ) a5 fullShare (View.canon L5))) := by
  iintro ⟨⟨⟨HS, Hr⟩, Hg⟩, Ho, ⟨%d0, H0⟩, ⟨%d1, H1⟩, ⟨%d2, H2⟩, ⟨%d3, H3⟩⟩
  iapply (run Set.univ _)
  isplitl [H0]; · iexact H0
  isplitl [H1]; · iexact H1
  isplitl [H2]; · iexact H2
  isplitl [H3]; · iexists _; iexact H3
  isplitl [HS]; · iapply hQ; iexact HS
  iintro ⟨H0, H1, H2, ⟨%e3, H3⟩, ⟨%es, HS⟩⟩
  isplitl [HS Hr Hg]
  · isplitl [HS Hr]
    · isplitl [HS]
      · unfold owns; iexists _; isplitr
        swap; · iexact HS
        ipureintro; exact View.read_writes_eq_canon _ _ _ h6
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ h5

end Cert.Kernel.Hand

end
-- ==== Proof.KBits.R0Data.lean ====
import proofs.«413038_j6820408066453_1_alg».proof.Proof.KBits.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

abbrev ms0_0 (t : Fin cfg0.N) : Memref sig .tc .vmem S10112x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10112x64 .f32 := win0_3.stage (cfg0.slots t 3)
abbrev hs0_3 (t : Fin cfg0.N) : (ms0_3 t).IsWhole := hstage0_3 ((cfg0.slots t 3).cast nbuf0_3)

abbrev scM0 : Memref sig .tc .vmem S10112x64 .f32 := Memref.whole cc0_scratch0

section
variable (V : (c : Dev nD) → (b : Ref sig .tc) → Buf (Elt F) ((c : Thread nD τ).loc b))

abbrev runA0 (c : Dev nD) (t : Fin cfg0.N) (hc : condI (grid0.coords t)) :=
  kernelRunA c (grid0.coords t) (ms0_0 t) (hs0_0 t) (ms0_1 t) (hs0_1 t) (ms0_2 t) (hs0_2 t) (ms0_3 t) (hs0_3 t) scM0 (Memref.isWhole_whole _) hc (iblk0 V c 0 t) (iblk0 V c 1 t) (iblk0 V c 2 t)
abbrev runB0 (c : Dev nD) (t : Fin cfg0.N) (hc : ¬condI (grid0.coords t)) (xs : Vec F S10112x64 .f32) :=
  kernelRunB c (grid0.coords t) (ms0_0 t) (hs0_0 t) (ms0_1 t) (hs0_1 t) (ms0_2 t) (hs0_2 t) (ms0_3 t) (hs0_3 t) scM0 (Memref.isWhole_whole _) hc (iblk0 V c 0 t) (iblk0 V c 1 t) (iblk0 V c 2 t) xs
abbrev ptA0 (c : Dev nD) (t : Fin cfg0.N) (hc : condI (grid0.coords t)) : Vec F S1x10112x64 .f32 × Vec F S10112x64 .f32 :=
  (View.canon (runA0 V c t hc).1, View.canon (runA0 V c t hc).2.1)
abbrev ptB0 (c : Dev nD) (t : Fin cfg0.N) (hc : ¬condI (grid0.coords t)) (xs : Vec F S10112x64 .f32) : Vec F S1x10112x64 .f32 × Vec F S10112x64 .f32 :=
  (View.canon (runB0 V c t hc xs).1, View.canon (runB0 V c t hc xs).2.1)

/-- The output block and the accumulator after each grid point: the first column tile of a batch clears, the later ones add. -/
def outsAt0 (c : Dev nD) : (n : ℕ) → n < cfg0.N → Vec F S1x10112x64 .f32 × Vec F S10112x64 .f32
  | 0, hn => ptA0 V c ⟨0, hn⟩ ((hcondI ⟨0, hn⟩).mpr (Nat.zero_mod _))
  | n + 1, hn =>
    if hm : (n + 1) % 79 = 0 then ptA0 V c ⟨n + 1, hn⟩ ((hcondI ⟨n + 1, hn⟩).mpr hm)
    else ptB0 V c ⟨n + 1, hn⟩ (fun h => hm ((hcondI ⟨n + 1, hn⟩).mp h)) (outsAt0 c n (Nat.lt_of_succ_lt hn)).2

theorem outsAt0_A (c : Dev nD) (t : Fin cfg0.N) (hm : t.val % 79 = 0) :
    outsAt0 V c t.val t.isLt = ptA0 V c t ((hcondI t).mpr hm) := by
  obtain ⟨n, hn⟩ := t
  cases n with
  | zero => exact rfl
  | succ n => exact (dif_pos hm).trans rfl

theorem outsAt0_B (c : Dev nD) (t : Fin cfg0.N) (hm : ¬t.val % 79 = 0) :
    outsAt0 V c t.val t.isLt = ptB0 V c t (fun h => hm ((hcondI t).mp h)) (outsAt0 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]; try rfl

/-- The accumulator's contents between grid points: arbitrary before the first, `outsAt0`'s second component after each. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-- The launch's proof data: each input block is its array's block, the output block and the accumulator follow `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- One grid point: the body run at the point's buffers takes the state before it to the state after it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [cc0_is]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases hm : t.val % 79 = 0
  · rw [outsAt0_A V c t hm]
    dsimp only [ptA0]
    by_cases hz : t.val = 0
    · rw [PhiS0_castSucc V c t, PhiS0_zero V c _ _ hz, PhiA0_eq]
      exact step_of_run (runA0 V c t ((hcondI t).mpr hm)).2.2 (coverA c _ _ _ _ _ _ _ _ _ _ _ _ _ _ _) (scoverA c _ _ _ _ _ _ _ _ _ _ _ _ _ _ _) .rfl _ _ _ _
    · rw [PhiS0_castSucc V c t, PhiS0_pos V c _ _ hz]
      exact step_of_run (runA0 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt0_B V c t hm]
    dsimp only [ptB0]
    rw [PhiS0_castSucc V c t, PhiS0_pos V c _ _ (fun e => hm (by rw [e]))]
    exact step_of_run (runB0 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 632 := N_0; omega), PhiA0_eq]
  iintro ⟨⟨HS, Hr⟩, Hg⟩
  isplitl [HS Hr]
  · isplitl [HS]
    · iexists _; iexact HS
    iexact Hr
  iexact Hg

end

end Cert.Kernel.Hand

end
-- ==== Proof.KBits.R1Data.lean ====
import proofs.«413038_j6820408066453_1_alg».proof.Proof.KBits.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

abbrev ms1_0 (t : Fin cfg1.N) : Memref sig .tc .vmem S10112x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x10112x64 .f32 := win1_3.stage (cfg1.slots t 3)
abbrev hs1_3 (t : Fin cfg1.N) : (ms1_3 t).IsWhole := hstage1_3 ((cfg1.slots t 3).cast nbuf1_3)

abbrev scM1 : Memref sig .tc .vmem S10112x64 .f32 := Memref.whole cc1_scratch0

section
variable (V : (c : Dev nD) → (b : Ref sig .tc) → Buf (Elt F) ((c : Thread nD τ).loc b))

abbrev runA1 (c : Dev nD) (t : Fin cfg1.N) (hc : condI (grid1.coords t)) :=
  kernelRunA c (grid1.coords t) (ms1_0 t) (hs1_0 t) (ms1_1 t) (hs1_1 t) (ms1_2 t) (hs1_2 t) (ms1_3 t) (hs1_3 t) scM1 (Memref.isWhole_whole _) hc (iblk1 V c 0 t) (iblk1 V c 1 t) (iblk1 V c 2 t)
abbrev runB1 (c : Dev nD) (t : Fin cfg1.N) (hc : ¬condI (grid1.coords t)) (xs : Vec F S10112x64 .f32) :=
  kernelRunB c (grid1.coords t) (ms1_0 t) (hs1_0 t) (ms1_1 t) (hs1_1 t) (ms1_2 t) (hs1_2 t) (ms1_3 t) (hs1_3 t) scM1 (Memref.isWhole_whole _) hc (iblk1 V c 0 t) (iblk1 V c 1 t) (iblk1 V c 2 t) xs
abbrev ptA1 (c : Dev nD) (t : Fin cfg1.N) (hc : condI (grid1.coords t)) : Vec F S1x10112x64 .f32 × Vec F S10112x64 .f32 :=
  (View.canon (runA1 V c t hc).1, View.canon (runA1 V c t hc).2.1)
abbrev ptB1 (c : Dev nD) (t : Fin cfg1.N) (hc : ¬condI (grid1.coords t)) (xs : Vec F S10112x64 .f32) : Vec F S1x10112x64 .f32 × Vec F S10112x64 .f32 :=
  (View.canon (runB1 V c t hc xs).1, View.canon (runB1 V c t hc xs).2.1)

/-- The output block and the accumulator after each grid point: the first column tile of a batch clears, the later ones add. -/
def outsAt1 (c : Dev nD) : (n : ℕ) → n < cfg1.N → Vec F S1x10112x64 .f32 × Vec F S10112x64 .f32
  | 0, hn => ptA1 V c ⟨0, hn⟩ ((hcondI ⟨0, hn⟩).mpr (Nat.zero_mod _))
  | n + 1, hn =>
    if hm : (n + 1) % 79 = 0 then ptA1 V c ⟨n + 1, hn⟩ ((hcondI ⟨n + 1, hn⟩).mpr hm)
    else ptB1 V c ⟨n + 1, hn⟩ (fun h => hm ((hcondI ⟨n + 1, hn⟩).mp h)) (outsAt1 c n (Nat.lt_of_succ_lt hn)).2

theorem outsAt1_A (c : Dev nD) (t : Fin cfg1.N) (hm : t.val % 79 = 0) :
    outsAt1 V c t.val t.isLt = ptA1 V c t ((hcondI t).mpr hm) := by
  obtain ⟨n, hn⟩ := t
  cases n with
  | zero => exact rfl
  | succ n => exact (dif_pos hm).trans rfl

theorem outsAt1_B (c : Dev nD) (t : Fin cfg1.N) (hm : ¬t.val % 79 = 0) :
    outsAt1 V c t.val t.isLt = ptB1 V c t (fun h => hm ((hcondI t).mp h)) (outsAt1 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]; try rfl

/-- The accumulator's contents between grid points: arbitrary before the first, `outsAt1`'s second component after each. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-- The launch's proof data: each input block is its array's block, the output block and the accumulator follow `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- One grid point: the body run at the point's buffers takes the state before it to the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_is]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases hm : t.val % 79 = 0
  · rw [outsAt1_A V c t hm]
    dsimp only [ptA1]
    by_cases hz : t.val = 0
    · rw [PhiS1_castSucc V c t, PhiS1_zero V c _ _ hz, PhiA1_eq]
      exact step_of_run (runA1 V c t ((hcondI t).mpr hm)).2.2 (coverA c _ _ _ _ _ _ _ _ _ _ _ _ _ _ _) (scoverA c _ _ _ _ _ _ _ _ _ _ _ _ _ _ _) .rfl _ _ _ _
    · rw [PhiS1_castSucc V c t, PhiS1_pos V c _ _ hz]
      exact step_of_run (runA1 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt1_B V c t hm]
    dsimp only [ptB1]
    rw [PhiS1_castSucc V c t, PhiS1_pos V c _ _ (fun e => hm (by rw [e]))]
    exact step_of_run (runB1 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 632 := N_1; omega), PhiA1_eq]
  iintro ⟨⟨HS, Hr⟩, Hg⟩
  isplitl [HS Hr]
  · isplitl [HS]
    · iexists _; iexact HS
    iexact Hr
  iexact Hg

end

end Cert.Kernel.Hand

end
-- ==== Proof.KBits.R2Data.lean ====
import proofs.«413038_j6820408066453_1_alg».proof.Proof.KBits.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end

abbrev ms2_0 (t : Fin cfg2.N) : Memref sig .tc .vmem S10112x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x10112x64 .f32 := win2_3.stage (cfg2.slots t 3)
abbrev hs2_3 (t : Fin cfg2.N) : (ms2_3 t).IsWhole := hstage2_3 ((cfg2.slots t 3).cast nbuf2_3)

abbrev scM2 : Memref sig .tc .vmem S10112x64 .f32 := Memref.whole cc2_scratch0

section
variable (V : (c : Dev nD) → (b : Ref sig .tc) → Buf (Elt F) ((c : Thread nD τ).loc b))

abbrev runA2 (c : Dev nD) (t : Fin cfg2.N) (hc : condI (grid2.coords t)) :=
  kernelRunA c (grid2.coords t) (ms2_0 t) (hs2_0 t) (ms2_1 t) (hs2_1 t) (ms2_2 t) (hs2_2 t) (ms2_3 t) (hs2_3 t) scM2 (Memref.isWhole_whole _) hc (iblk2 V c 0 t) (iblk2 V c 1 t) (iblk2 V c 2 t)
abbrev runB2 (c : Dev nD) (t : Fin cfg2.N) (hc : ¬condI (grid2.coords t)) (xs : Vec F S10112x64 .f32) :=
  kernelRunB c (grid2.coords t) (ms2_0 t) (hs2_0 t) (ms2_1 t) (hs2_1 t) (ms2_2 t) (hs2_2 t) (ms2_3 t) (hs2_3 t) scM2 (Memref.isWhole_whole _) hc (iblk2 V c 0 t) (iblk2 V c 1 t) (iblk2 V c 2 t) xs
abbrev ptA2 (c : Dev nD) (t : Fin cfg2.N) (hc : condI (grid2.coords t)) : Vec F S1x10112x64 .f32 × Vec F S10112x64 .f32 :=
  (View.canon (runA2 V c t hc).1, View.canon (runA2 V c t hc).2.1)
abbrev ptB2 (c : Dev nD) (t : Fin cfg2.N) (hc : ¬condI (grid2.coords t)) (xs : Vec F S10112x64 .f32) : Vec F S1x10112x64 .f32 × Vec F S10112x64 .f32 :=
  (View.canon (runB2 V c t hc xs).1, View.canon (runB2 V c t hc xs).2.1)

/-- The output block and the accumulator after each grid point: the first column tile of a batch clears, the later ones add. -/
def outsAt2 (c : Dev nD) : (n : ℕ) → n < cfg2.N → Vec F S1x10112x64 .f32 × Vec F S10112x64 .f32
  | 0, hn => ptA2 V c ⟨0, hn⟩ ((hcondI ⟨0, hn⟩).mpr (Nat.zero_mod _))
  | n + 1, hn =>
    if hm : (n + 1) % 79 = 0 then ptA2 V c ⟨n + 1, hn⟩ ((hcondI ⟨n + 1, hn⟩).mpr hm)
    else ptB2 V c ⟨n + 1, hn⟩ (fun h => hm ((hcondI ⟨n + 1, hn⟩).mp h)) (outsAt2 c n (Nat.lt_of_succ_lt hn)).2

theorem outsAt2_A (c : Dev nD) (t : Fin cfg2.N) (hm : t.val % 79 = 0) :
    outsAt2 V c t.val t.isLt = ptA2 V c t ((hcondI t).mpr hm) := by
  obtain ⟨n, hn⟩ := t
  cases n with
  | zero => exact rfl
  | succ n => exact (dif_pos hm).trans rfl

theorem outsAt2_B (c : Dev nD) (t : Fin cfg2.N) (hm : ¬t.val % 79 = 0) :
    outsAt2 V c t.val t.isLt = ptB2 V c t (fun h => hm ((hcondI t).mp h)) (outsAt2 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]; try rfl

/-- The accumulator's contents between grid points: arbitrary before the first, `outsAt2`'s second component after each. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-- The launch's proof data: each input block is its array's block, the output block and the accumulator follow `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- One grid point: the body run at the point's buffers takes the state before it to the state after it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_is]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  by_cases hm : t.val % 79 = 0
  · rw [outsAt2_A V c t hm]
    dsimp only [ptA2]
    by_cases hz : t.val = 0
    · rw [PhiS2_castSucc V c t, PhiS2_zero V c _ _ hz, PhiA2_eq]
      exact step_of_run (runA2 V c t ((hcondI t).mpr hm)).2.2 (coverA c _ _ _ _ _ _ _ _ _ _ _ _ _ _ _) (scoverA c _ _ _ _ _ _ _ _ _ _ _ _ _ _ _) .rfl _ _ _ _
    · rw [PhiS2_castSucc V c t, PhiS2_pos V c _ _ hz]
      exact step_of_run (runA2 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt2_B V c t hm]
    dsimp only [ptB2]
    rw [PhiS2_castSucc V c t, PhiS2_pos V c _ _ (fun e => hm (by rw [e]))]
    exact step_of_run (runB2 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 632 := N_2; omega), PhiA2_eq]
  iintro ⟨⟨HS, Hr⟩, Hg⟩
  isplitl [HS Hr]
  · isplitl [HS]
    · iexists _; iexact HS
    iexact Hr
  iexact Hg

end

end Cert.Kernel.Hand

end
-- ==== Proof.KBits.Regs.lean ====
import proofs.«413038_j6820408066453_1_alg».proof.Proof.KBits.R0Data
import proofs.«413038_j6820408066453_1_alg».proof.Proof.KBits.R1Data
import proofs.«413038_j6820408066453_1_alg».proof.Proof.KBits.R2Data
import proofs.«413038_j6820408066453_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Va (c : Dev nD) (b : Ref sig .tc) : Buf (Elt F) ((c : Thread nD τ).loc b) := V3 m c b

def o0 (c : Dev nD) : Buf (Elt F) ((c : Thread nD τ).loc main_v17) := (dat0 (Va m) c).arrAt 3 cfg0.N

def outsA : Outs (F := F) := fun _ r c =>
  Function.update (fun r' : Ref sig .tc => m ((c : Thread nD τ).loc r')) main_v17 (o0 m c) r

abbrev Vb (c : Dev nD) (b : Ref sig .tc) : Buf (Elt F) ((c : Thread nD τ).loc b) := V5 m (outsA m) c b

def o1 (c : Dev nD) : Buf (Elt F) ((c : Thread nD τ).loc main_v19) := (dat1 (Vb m) c).arrAt 3 cfg1.N

def outsB : Outs (F := F) := fun _ r c =>
  Function.update (Function.update (fun r' : Ref sig .tc => m ((c : Thread nD τ).loc r')) main_v17 (o0 m c)) main_v19 (o1 m c) r

abbrev Vc (c : Dev nD) (b : Ref sig .tc) : Buf (Elt F) ((c : Thread nD τ).loc b) := V7 m (outsB m) c b

def o2 (c : Dev nD) : Buf (Elt F) ((c : Thread nD τ).loc main_v21) := (dat2 (Vc m) c).arrAt 3 cfg2.N

/-- What the three launches leave in their output arrays, each computed from the host state the one before left. -/
def outs : Outs (F := F) := fun _ r c =>
  Function.update (Function.update (Function.update (fun r' : Ref sig .tc => m ((c : Thread nD τ).loc r')) main_v17 (o0 m c)) main_v19 (o1 m c)) main_v21 (o2 m c) r

theorem outsA_17 (n : ℕ) (c : Dev nD) : outsA m n main_v17 c = o0 m c := by
  unfold outsA; rw [Function.update_self]
theorem outsB_17 (n : ℕ) (c : Dev nD) : outsB m n main_v17 c = o0 m c := by
  unfold outsB; rw [Function.update_of_ne (by decide), Function.update_self]
theorem outsB_19 (n : ℕ) (c : Dev nD) : outsB m n main_v19 c = o1 m c := by
  unfold outsB; rw [Function.update_self]
theorem outs_17 (n : ℕ) (c : Dev nD) : outs m n main_v17 c = o0 m c := by
  unfold outs; rw [Function.update_of_ne (by decide), Function.update_of_ne (by decide), Function.update_self]
theorem outs_19 (n : ℕ) (c : Dev nD) : outs m n main_v19 c = o1 m c := by
  unfold outs; rw [Function.update_of_ne (by decide), Function.update_self]
theorem outs_21 (n : ℕ) (c : Dev nD) : outs m n main_v21 c = o2 m c := by
  unfold outs; rw [Function.update_self]

theorem V5_outs (c : Dev nD) : V5 m (outs m) c = V5 m (outsA m) c := by
  unfold V5 V4; rw [outs_17, outsA_17]

theorem V7_outs (c : Dev nD) : V7 m (outs m) c = V7 m (outsB m) c := by
  unfold V7 V6 V5 V4; rw [outs_17, outs_19, outsB_17, outsB_19]

theorem carry0 (c : Dev nD) (b : Ref sig .tc) (h : b ∉ ([main_v17] : List (Ref sig .tc))) : V4 m (outs m) c b = Va m c b :=
  V4_of m (outs m) c b h

theorem carry1 (c : Dev nD) (b : Ref sig .tc) (h : b ∉ ([main_v19] : List (Ref sig .tc))) : V6 m (outs m) c b = Vb m c b :=
  (V6_of m (outs m) c b h).trans (congrFun (V5_outs m c) (Proc.devRef .tc b))

theorem carry2 (c : Dev nD) (b : Ref sig .tc) (h : b ∉ ([main_v21] : List (Ref sig .tc))) : V8 m (outs m) c b = Vc m c b :=
  (V8_of m (outs m) c b h).trans (congrFun (V7_outs m c) (Proc.devRef .tc b))

def pdats : (p : Fin 3) → (c : Dev nD) → Dat τ (Elt F) Unit ℕ (UR sig nD τ) ℕ (cfgs p) c
  | ⟨0, _⟩ => fun c => dat0 (Va m) c
  | ⟨1, _⟩ => fun c => dat1 (Vb m) c
  | ⟨2, _⟩ => fun c => dat2 (Vc m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) : ∀ w, (dat0 (Va m) c).arrAt w cfg0.N = V4 m (outs m) c (Pipeline.arrRef spec0 w)
  | ⟨0, _⟩ => (((dat0 (Va m) c).arrAt_in 0 rfl _).trans (A_eq0 (Va m) c 0)).trans (carry0 m c main_v15 (by decide)).symm
  | ⟨1, _⟩ => (((dat0 (Va m) c).arrAt_in 1 rfl _).trans (A_eq0 (Va m) c 1)).trans (carry0 m c main_v0 (by decide)).symm
  | ⟨2, _⟩ => (((dat0 (Va m) c).arrAt_in 2 rfl _).trans (A_eq0 (Va m) c 2)).trans (carry0 m c main_v16 (by decide)).symm
  | ⟨3, _⟩ => by
    show _ = V4 m (outs m) c main_v17
    unfold V4
    rw [Function.update_self, outs_17]
    rfl

theorem hrest0 (c : Dev nD) : ∀ b, b ∉ Finset.univ.image (Pipeline.arrRef spec0) → V4 m (outs m) c b = Va m c b :=
  fun b hb => carry0 m c b (fun h => hb (by rw [List.mem_singleton] at h; subst h; exact Finset.mem_image.mpr ⟨3, Finset.mem_univ _, rfl⟩))

set_option backward.isDefEq.respectTransparency.types false in
/-- Launch 0 as a segment of @main: its arrays split off the host state on entry and joined back, output replaced, on exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) : ∀ w, (dat1 (Vb m) c).arrAt w cfg1.N = V6 m (outs m) c (Pipeline.arrRef spec1 w)
  | ⟨0, _⟩ => (((dat1 (Vb m) c).arrAt_in 0 rfl _).trans (A_eq1 (Vb m) c 0)).trans (carry1 m c main_v15 (by decide)).symm
  | ⟨1, _⟩ => (((dat1 (Vb m) c).arrAt_in 1 rfl _).trans (A_eq1 (Vb m) c 1)).trans (carry1 m c main_v17 (by decide)).symm
  | ⟨2, _⟩ => (((dat1 (Vb m) c).arrAt_in 2 rfl _).trans (A_eq1 (Vb m) c 2)).trans (carry1 m c main_v18 (by decide)).symm
  | ⟨3, _⟩ => by
    show _ = V6 m (outs m) c main_v19
    unfold V6
    rw [Function.update_self, outs_19]
    rfl

theorem hrest1 (c : Dev nD) : ∀ b, b ∉ Finset.univ.image (Pipeline.arrRef spec1) → V6 m (outs m) c b = Vb m c b :=
  fun b hb => carry1 m c b (fun h => hb (by rw [List.mem_singleton] at h; subst h; exact Finset.mem_image.mpr ⟨3, Finset.mem_univ _, rfl⟩))

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vb m) c)
    unfold Pipeline.ΦA
    iintro ⟨Hp, -, Hr⟩
    isplitl [Hr]; · iexact Hr
    iexact Hp
  hout c := by
    rw [Pipeline.ownSems0_none]
    refine BIBase.Entails.trans (hout1 (Vb m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w, (dat2 (Vc m) c).arrAt w cfg2.N = V8 m (outs m) c (Pipeline.arrRef spec2 w)
  | ⟨0, _⟩ => (((dat2 (Vc m) c).arrAt_in 0 rfl _).trans (A_eq2 (Vc m) c 0)).trans (carry2 m c main_v15 (by decide)).symm
  | ⟨1, _⟩ => (((dat2 (Vc m) c).arrAt_in 1 rfl _).trans (A_eq2 (Vc m) c 1)).trans (carry2 m c main_v19 (by decide)).symm
  | ⟨2, _⟩ => (((dat2 (Vc m) c).arrAt_in 2 rfl _).trans (A_eq2 (Vc m) c 2)).trans (carry2 m c main_v20 (by decide)).symm
  | ⟨3, _⟩ => by
    show _ = V8 m (outs m) c main_v21
    unfold V8
    rw [Function.update_self, outs_21]
    rfl

theorem hrest2 (c : Dev nD) : ∀ b, b ∉ Finset.univ.image (Pipeline.arrRef spec2) → V8 m (outs m) c b = Vc m c b :=
  fun b hb => carry2 m c b (fun h => hb (by rw [List.mem_singleton] at h; subst h; exact Finset.mem_image.mpr ⟨3, Finset.mem_univ _, rfl⟩))

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (V7 m (outsB m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vc m) c)
    unfold Pipeline.ΦA
    iintro ⟨Hp, -, Hr⟩
    isplitl [Hr]; · iexact Hr
    iexact Hp
  hout c := by
    rw [Pipeline.ownSems0_none]
    refine BIBase.Entails.trans (hout2 (Vc m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc m c) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KBits.Launch.lean ====
import proofs.«413038_j6820408066453_1_alg».proof.Proof.KBits.Regs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
/-- The word-level program's frame: the generated chain of segments at the three launches' records. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V5_outs]; exact .rfl) (fun c => .rfl)
    (reg2 m) (fun c => by rw [V7_outs]; exact .rfl) (fun c => .rfl)

end Cert.Kernel.Hand

end
-- ==== Proof.KIdeal.Body.lean ====
import proofs.«413038_j6820408066453_1_alg».proof.Proof.Gen.KernelIdeal.Launch
import proofs.«413038_j6820408066453_1_alg».proof.Proof.Gen.KernelIdeal.Skeleton
import proofs.«413038_j6820408066453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three launches call one kernel function: the three printed copies are the same term. -/
def layer := cc0__layer_kernel (F := F)
theorem cc0_is : cc0__layer_kernel (F := F) = layer := rfl
theorem cc1_is : cc1__layer_kernel (F := F) = layer := rfl
theorem cc2_is : cc2__layer_kernel (F := F) = layer := rfl

abbrev condI (i : grid0.Coords) : Prop := (Scalar.cmpi .ne (Scalar.extui (Scalar.cmpi .eq (BitVec.ofNat 32 (i 1).val) 0#32)) 0#32) = 1#1

theorem hcondI : ∀ t : Fin cfg0.N, condI (grid0.coords t) ↔ t.val % 79 = 0 :=
  (by decide +kernel : ∀ t : Fin grid0.N, condI (grid0.coords t) ↔ t.val % 79 = 0)

/-- A run of the body at whole memrefs: from the three input blocks, any output block and `P6` at the accumulator, it ends with the
    inputs as they were and the two written buffers holding the pieces `L5` and `LS`. -/
def RunsTo (c : Dev nD) (prog : Prog (TpuEff nD τ sig (Elt F) Λ₀ .tc) PUnit)
    (a2 : Memref sig .tc .vmem S10112x128 .f32) (a3 : Memref sig .tc .vmem S1x128x64 .f32) (a4 : Memref sig .tc .vmem S64x64 .f32)
    (a5 : Memref sig .tc .vmem S1x10112x64 .f32) (a6 : Memref sig .tc .vmem S10112x64 .f32)
    (x2 : Vec F S10112x128 .f32) (x3 : Vec F S1x128x64 .f32) (x4 : Vec F S64x64 .f32) (P6 : sProp 𝕄)
    (L5 : List (View.Piece (Elt F) S1x10112x64 .f32)) (LS : List (View.Piece (Elt F) S10112x64 .f32)) : Prop :=
  ∀ (E : Set ℕ) (K : PUnit → sProp 𝕄),
    iprop(owns (c : Thread nD τ) a2 fullShare x2 ∗ owns (c : Thread nD τ) a3 fullShare x3 ∗ owns (c : Thread nD τ) a4 fullShare x4
        ∗ (∃ d, owns (c : Thread nD τ) a5 fullShare d) ∗ P6
        ∗ (iprop(owns (c : Thread nD τ) a2 fullShare x2 ∗ owns (c : Thread nD τ) a3 fullShare x3 ∗ owns (c : Thread nD τ) a4 fullShare x4
            ∗ (∃ f, a5.view.loc (c : Thread nD τ) ↦[a5.view.set]{fullShare} a5.view.writes (Elt F) f L5)
            ∗ (∃ f, a6.view.loc (c : Thread nD τ) ↦[a6.view.set]{fullShare} a6.view.writes (Elt F) f LS)) -∗ K ⟨⟩))
      ⊢ wp frame (wpE (defs₀ (F := F)) Variants.none c none) E prog K

set_option maxHeartbeats 4000000 in
noncomputable def kernelRunA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i)
    (x2 : Vec F S10112x128 .f32) (x3 : Vec F S1x128x64 .f32) (x4 : Vec F S64x64 .f32) :
    Σ' (L5 : List (View.Piece (Elt F) S1x10112x64 .f32)), { LS : List (View.Piece (Elt F) S10112x64 .f32) //
      RunsTo c (layer i arg2 harg2 arg3 harg3 arg4 harg4 arg5 harg5 arg6 harg6) arg2 arg3 arg4 arg5 arg6 x2 x3 x4 iprop(∃ d, owns (c : Thread nD τ) arg6 fullShare d) L5 LS } := by
  refine ⟨?_, ?_, fun E K => ?run⟩
  case run =>
    unfold layer; simp only [cc0__layer_kernel_eq_skeleton]; unfold cc0__layer_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 4000000 in
noncomputable def kernelRunB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i)
    (x2 : Vec F S10112x128 .f32) (x3 : Vec F S1x128x64 .f32) (x4 : Vec F S64x64 .f32) (xs : Vec F S10112x64 .f32) :
    Σ' (L5 : List (View.Piece (Elt F) S1x10112x64 .f32)), { LS : List (View.Piece (Elt F) S10112x64 .f32) //
      RunsTo c (layer i arg2 harg2 arg3 harg3 arg4 harg4 arg5 harg5 arg6 harg6) arg2 arg3 arg4 arg5 arg6 x2 x3 x4 (owns (c : Thread nD τ) arg6 fullShare xs) L5 LS } := by
  refine ⟨?_, ?_, fun E K => ?run⟩
  case run =>
    unfold layer; simp only [cc0__layer_kernel_eq_skeleton]; unfold cc0__layer_kernel_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := harg2.eq_unread hf2; obtain rfl := harg3.eq_unread hf3; obtain rfl := harg4.eq_unread hf4; obtain rfl := harg6.eq_unread hf6
    sl_exec (disch := exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

/-- Each run's pieces tile the whole output block and the whole accumulator. -/
theorem coverA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) (y : S1x10112x64.Idx) :
    ∃ pc ∈ (kernelRunA c i arg2 harg2 arg3 harg3 arg4 harg4 arg5 harg5 arg6 harg6 hc x2 x3 x4).1, y ∈ pc.1.set :=
  View.cover_of_tiledL (kernelRunA c i arg2 harg2 arg3 harg3 arg4 harg4 arg5 harg5 arg6 harg6 hc x2 x3 x4).1 S1x10112x64.size (by sl_kernel_rfl) y

theorem scoverA (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) (y : S10112x64.Idx) :
    ∃ pc ∈ (kernelRunA c i arg2 harg2 arg3 harg3 arg4 harg4 arg5 harg5 arg6 harg6 hc x2 x3 x4).2.1, y ∈ pc.1.set :=
  View.cover_of_tiledL (kernelRunA c i arg2 harg2 arg3 harg3 arg4 harg4 arg5 harg5 arg6 harg6 hc x2 x3 x4).2.1 S10112x64.size (by sl_kernel_rfl) y

theorem coverB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) (y : S1x10112x64.Idx) :
    ∃ pc ∈ (kernelRunB c i arg2 harg2 arg3 harg3 arg4 harg4 arg5 harg5 arg6 harg6 hc x2 x3 x4 xs).1, y ∈ pc.1.set :=
  View.cover_of_tiledL (kernelRunB c i arg2 harg2 arg3 harg3 arg4 harg4 arg5 harg5 arg6 harg6 hc x2 x3 x4 xs).1 S1x10112x64.size (by sl_kernel_rfl) y

theorem scoverB (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) (y : S10112x64.Idx) :
    ∃ pc ∈ (kernelRunB c i arg2 harg2 arg3 harg3 arg4 harg4 arg5 harg5 arg6 harg6 hc x2 x3 x4 xs).2.1, y ∈ pc.1.set :=
  View.cover_of_tiledL (kernelRunB c i arg2 harg2 arg3 harg3 arg4 harg4 arg5 harg5 arg6 harg6 hc x2 x3 x4 xs).2.1 S10112x64.size (by sl_kernel_rfl) y

/-- From a run of the body to a grid point's step: the three input blocks are unchanged, and the output block and the
    accumulator hold what the run's pieces cover them with; `Q6` is what the point finds in the accumulator. -/
theorem step_of_run {c : Dev nD} {prog : Prog (TpuEff nD τ sig (Elt F) Λ₀ .tc) PUnit}
    {a2 : Memref sig .tc .vmem S10112x128 .f32} {a3 : Memref sig .tc .vmem S1x128x64 .f32} {a4 : Memref sig .tc .vmem S64x64 .f32}
    {a5 : Memref sig .tc .vmem S1x10112x64 .f32} {a6 : Memref sig .tc .vmem S10112x64 .f32}
    {x2 : Vec F S10112x128 .f32} {x3 : Vec F S1x128x64 .f32} {x4 : Vec F S64x64 .f32}
    {L5 : List (View.Piece (Elt F) S1x10112x64 .f32)} {LS : List (View.Piece (Elt F) S10112x64 .f32)} {P6 : sProp 𝕄}
    (run : RunsTo c prog a2 a3 a4 a5 a6 x2 x3 x4 P6 L5 LS)
    (h5 : ∀ y, ∃ pc ∈ L5, y ∈ pc.1.set) (h6 : ∀ y, ∃ pc ∈ LS, y ∈ pc.1.set)
    {Q6 : sProp 𝕄} (hQ : Q6 ⊢ P6) (Rs Rg Ro : sProp 𝕄) {D0 D1 D2 D3 : Type} (bf : D3 → Vec F S1x10112x64 .f32) :
    iprop(((Q6 ∗ Rs) ∗ Rg) ∗ Ro ∗ (∃ _d : D0, owns (c : Thread nD τ) a2 fullShare x2) ∗ (∃ _d : D1, owns (c : Thread nD τ) a3 fullShare x3)
        ∗ (∃ _d : D2, owns (c : Thread nD τ) a4 fullShare x4) ∗ (∃ d : D3, owns (c : Thread nD τ) a5 fullShare (bf d)))
      ⊢ wp frame (wpE (defs₀ (F := F)) Variants.none c none) Set.univ prog (fun _ =>
          iprop(((owns (c : Thread nD τ) a6 fullShare (View.canon LS) ∗ Rs) ∗ Rg) ∗ Ro ∗ owns (c : Thread nD τ) a2 fullShare x2
            ∗ owns (c : Thread nD τ) a3 fullShare x3 ∗ owns (c : Thread nD τ) a4 fullShare x4 ∗ owns (c : Thread nD τ) a5 fullShare (View.canon L5))) := by
  iintro ⟨⟨⟨HS, Hr⟩, Hg⟩, Ho, ⟨%d0, H0⟩, ⟨%d1, H1⟩, ⟨%d2, H2⟩, ⟨%d3, H3⟩⟩
  iapply (run Set.univ _)
  isplitl [H0]; · iexact H0
  isplitl [H1]; · iexact H1
  isplitl [H2]; · iexact H2
  isplitl [H3]; · iexists _; iexact H3
  isplitl [HS]; · iapply hQ; iexact HS
  iintro ⟨H0, H1, H2, ⟨%e3, H3⟩, ⟨%es, HS⟩⟩
  isplitl [HS Hr Hg]
  · isplitl [HS Hr]
    · isplitl [HS]
      · unfold owns; iexists _; isplitr
        swap; · iexact HS
        ipureintro; exact View.read_writes_eq_canon _ _ _ h6
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ h5

end Cert.KernelIdeal.Hand

end
-- ==== Proof.KIdeal.R0Data.lean ====
import proofs.«413038_j6820408066453_1_alg».proof.Proof.KIdeal.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

abbrev ms0_0 (t : Fin cfg0.N) : Memref sig .tc .vmem S10112x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10112x64 .f32 := win0_3.stage (cfg0.slots t 3)
abbrev hs0_3 (t : Fin cfg0.N) : (ms0_3 t).IsWhole := hstage0_3 ((cfg0.slots t 3).cast nbuf0_3)

abbrev scM0 : Memref sig .tc .vmem S10112x64 .f32 := Memref.whole cc0_scratch0

section
variable (V : (c : Dev nD) → (b : Ref sig .tc) → Buf (Elt F) ((c : Thread nD τ).loc b))

abbrev runA0 (c : Dev nD) (t : Fin cfg0.N) (hc : condI (grid0.coords t)) :=
  kernelRunA c (grid0.coords t) (ms0_0 t) (hs0_0 t) (ms0_1 t) (hs0_1 t) (ms0_2 t) (hs0_2 t) (ms0_3 t) (hs0_3 t) scM0 (Memref.isWhole_whole _) hc (iblk0 V c 0 t) (iblk0 V c 1 t) (iblk0 V c 2 t)
abbrev runB0 (c : Dev nD) (t : Fin cfg0.N) (hc : ¬condI (grid0.coords t)) (xs : Vec F S10112x64 .f32) :=
  kernelRunB c (grid0.coords t) (ms0_0 t) (hs0_0 t) (ms0_1 t) (hs0_1 t) (ms0_2 t) (hs0_2 t) (ms0_3 t) (hs0_3 t) scM0 (Memref.isWhole_whole _) hc (iblk0 V c 0 t) (iblk0 V c 1 t) (iblk0 V c 2 t) xs
abbrev ptA0 (c : Dev nD) (t : Fin cfg0.N) (hc : condI (grid0.coords t)) : Vec F S1x10112x64 .f32 × Vec F S10112x64 .f32 :=
  (View.canon (runA0 V c t hc).1, View.canon (runA0 V c t hc).2.1)
abbrev ptB0 (c : Dev nD) (t : Fin cfg0.N) (hc : ¬condI (grid0.coords t)) (xs : Vec F S10112x64 .f32) : Vec F S1x10112x64 .f32 × Vec F S10112x64 .f32 :=
  (View.canon (runB0 V c t hc xs).1, View.canon (runB0 V c t hc xs).2.1)

/-- The output block and the accumulator after each grid point: the first column tile of a batch clears, the later ones add. -/
def outsAt0 (c : Dev nD) : (n : ℕ) → n < cfg0.N → Vec F S1x10112x64 .f32 × Vec F S10112x64 .f32
  | 0, hn => ptA0 V c ⟨0, hn⟩ ((hcondI ⟨0, hn⟩).mpr (Nat.zero_mod _))
  | n + 1, hn =>
    if hm : (n + 1) % 79 = 0 then ptA0 V c ⟨n + 1, hn⟩ ((hcondI ⟨n + 1, hn⟩).mpr hm)
    else ptB0 V c ⟨n + 1, hn⟩ (fun h => hm ((hcondI ⟨n + 1, hn⟩).mp h)) (outsAt0 c n (Nat.lt_of_succ_lt hn)).2

theorem outsAt0_A (c : Dev nD) (t : Fin cfg0.N) (hm : t.val % 79 = 0) :
    outsAt0 V c t.val t.isLt = ptA0 V c t ((hcondI t).mpr hm) := by
  obtain ⟨n, hn⟩ := t
  cases n with
  | zero => exact rfl
  | succ n => exact (dif_pos hm).trans rfl

theorem outsAt0_B (c : Dev nD) (t : Fin cfg0.N) (hm : ¬t.val % 79 = 0) :
    outsAt0 V c t.val t.isLt = ptB0 V c t (fun h => hm ((hcondI t).mp h)) (outsAt0 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]; try rfl

/-- The accumulator's contents between grid points: arbitrary before the first, `outsAt0`'s second component after each. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-- The launch's proof data: each input block is its array's block, the output block and the accumulator follow `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- One grid point: the body run at the point's buffers takes the state before it to the state after it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [cc0_is]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases hm : t.val % 79 = 0
  · rw [outsAt0_A V c t hm]
    dsimp only [ptA0]
    by_cases hz : t.val = 0
    · rw [PhiS0_castSucc V c t, PhiS0_zero V c _ _ hz, PhiA0_eq]
      exact step_of_run (runA0 V c t ((hcondI t).mpr hm)).2.2 (coverA c _ _ _ _ _ _ _ _ _ _ _ _ _ _ _) (scoverA c _ _ _ _ _ _ _ _ _ _ _ _ _ _ _) .rfl _ _ _ _
    · rw [PhiS0_castSucc V c t, PhiS0_pos V c _ _ hz]
      exact step_of_run (runA0 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt0_B V c t hm]
    dsimp only [ptB0]
    rw [PhiS0_castSucc V c t, PhiS0_pos V c _ _ (fun e => hm (by rw [e]))]
    exact step_of_run (runB0 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 632 := N_0; omega), PhiA0_eq]
  iintro ⟨⟨HS, Hr⟩, Hg⟩
  isplitl [HS Hr]
  · isplitl [HS]
    · iexists _; iexact HS
    iexact Hr
  iexact Hg

end

end Cert.KernelIdeal.Hand

end
-- ==== Proof.KIdeal.R1Data.lean ====
import proofs.«413038_j6820408066453_1_alg».proof.Proof.KIdeal.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

abbrev ms1_0 (t : Fin cfg1.N) : Memref sig .tc .vmem S10112x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x10112x64 .f32 := win1_3.stage (cfg1.slots t 3)
abbrev hs1_3 (t : Fin cfg1.N) : (ms1_3 t).IsWhole := hstage1_3 ((cfg1.slots t 3).cast nbuf1_3)

abbrev scM1 : Memref sig .tc .vmem S10112x64 .f32 := Memref.whole cc1_scratch0

section
variable (V : (c : Dev nD) → (b : Ref sig .tc) → Buf (Elt F) ((c : Thread nD τ).loc b))

abbrev runA1 (c : Dev nD) (t : Fin cfg1.N) (hc : condI (grid1.coords t)) :=
  kernelRunA c (grid1.coords t) (ms1_0 t) (hs1_0 t) (ms1_1 t) (hs1_1 t) (ms1_2 t) (hs1_2 t) (ms1_3 t) (hs1_3 t) scM1 (Memref.isWhole_whole _) hc (iblk1 V c 0 t) (iblk1 V c 1 t) (iblk1 V c 2 t)
abbrev runB1 (c : Dev nD) (t : Fin cfg1.N) (hc : ¬condI (grid1.coords t)) (xs : Vec F S10112x64 .f32) :=
  kernelRunB c (grid1.coords t) (ms1_0 t) (hs1_0 t) (ms1_1 t) (hs1_1 t) (ms1_2 t) (hs1_2 t) (ms1_3 t) (hs1_3 t) scM1 (Memref.isWhole_whole _) hc (iblk1 V c 0 t) (iblk1 V c 1 t) (iblk1 V c 2 t) xs
abbrev ptA1 (c : Dev nD) (t : Fin cfg1.N) (hc : condI (grid1.coords t)) : Vec F S1x10112x64 .f32 × Vec F S10112x64 .f32 :=
  (View.canon (runA1 V c t hc).1, View.canon (runA1 V c t hc).2.1)
abbrev ptB1 (c : Dev nD) (t : Fin cfg1.N) (hc : ¬condI (grid1.coords t)) (xs : Vec F S10112x64 .f32) : Vec F S1x10112x64 .f32 × Vec F S10112x64 .f32 :=
  (View.canon (runB1 V c t hc xs).1, View.canon (runB1 V c t hc xs).2.1)

/-- The output block and the accumulator after each grid point: the first column tile of a batch clears, the later ones add. -/
def outsAt1 (c : Dev nD) : (n : ℕ) → n < cfg1.N → Vec F S1x10112x64 .f32 × Vec F S10112x64 .f32
  | 0, hn => ptA1 V c ⟨0, hn⟩ ((hcondI ⟨0, hn⟩).mpr (Nat.zero_mod _))
  | n + 1, hn =>
    if hm : (n + 1) % 79 = 0 then ptA1 V c ⟨n + 1, hn⟩ ((hcondI ⟨n + 1, hn⟩).mpr hm)
    else ptB1 V c ⟨n + 1, hn⟩ (fun h => hm ((hcondI ⟨n + 1, hn⟩).mp h)) (outsAt1 c n (Nat.lt_of_succ_lt hn)).2

theorem outsAt1_A (c : Dev nD) (t : Fin cfg1.N) (hm : t.val % 79 = 0) :
    outsAt1 V c t.val t.isLt = ptA1 V c t ((hcondI t).mpr hm) := by
  obtain ⟨n, hn⟩ := t
  cases n with
  | zero => exact rfl
  | succ n => exact (dif_pos hm).trans rfl

theorem outsAt1_B (c : Dev nD) (t : Fin cfg1.N) (hm : ¬t.val % 79 = 0) :
    outsAt1 V c t.val t.isLt = ptB1 V c t (fun h => hm ((hcondI t).mp h)) (outsAt1 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]; try rfl

/-- The accumulator's contents between grid points: arbitrary before the first, `outsAt1`'s second component after each. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-- The launch's proof data: each input block is its array's block, the output block and the accumulator follow `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- One grid point: the body run at the point's buffers takes the state before it to the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_is]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases hm : t.val % 79 = 0
  · rw [outsAt1_A V c t hm]
    dsimp only [ptA1]
    by_cases hz : t.val = 0
    · rw [PhiS1_castSucc V c t, PhiS1_zero V c _ _ hz, PhiA1_eq]
      exact step_of_run (runA1 V c t ((hcondI t).mpr hm)).2.2 (coverA c _ _ _ _ _ _ _ _ _ _ _ _ _ _ _) (scoverA c _ _ _ _ _ _ _ _ _ _ _ _ _ _ _) .rfl _ _ _ _
    · rw [PhiS1_castSucc V c t, PhiS1_pos V c _ _ hz]
      exact step_of_run (runA1 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt1_B V c t hm]
    dsimp only [ptB1]
    rw [PhiS1_castSucc V c t, PhiS1_pos V c _ _ (fun e => hm (by rw [e]))]
    exact step_of_run (runB1 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 632 := N_1; omega), PhiA1_eq]
  iintro ⟨⟨HS, Hr⟩, Hg⟩
  isplitl [HS Hr]
  · isplitl [HS]
    · iexists _; iexact HS
    iexact Hr
  iexact Hg

end

end Cert.KernelIdeal.Hand

end
-- ==== Proof.KIdeal.R2Data.lean ====
import proofs.«413038_j6820408066453_1_alg».proof.Proof.KIdeal.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w`, read off the array the launch finds there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end

abbrev ms2_0 (t : Fin cfg2.N) : Memref sig .tc .vmem S10112x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x10112x64 .f32 := win2_3.stage (cfg2.slots t 3)
abbrev hs2_3 (t : Fin cfg2.N) : (ms2_3 t).IsWhole := hstage2_3 ((cfg2.slots t 3).cast nbuf2_3)

abbrev scM2 : Memref sig .tc .vmem S10112x64 .f32 := Memref.whole cc2_scratch0

section
variable (V : (c : Dev nD) → (b : Ref sig .tc) → Buf (Elt F) ((c : Thread nD τ).loc b))

abbrev runA2 (c : Dev nD) (t : Fin cfg2.N) (hc : condI (grid2.coords t)) :=
  kernelRunA c (grid2.coords t) (ms2_0 t) (hs2_0 t) (ms2_1 t) (hs2_1 t) (ms2_2 t) (hs2_2 t) (ms2_3 t) (hs2_3 t) scM2 (Memref.isWhole_whole _) hc (iblk2 V c 0 t) (iblk2 V c 1 t) (iblk2 V c 2 t)
abbrev runB2 (c : Dev nD) (t : Fin cfg2.N) (hc : ¬condI (grid2.coords t)) (xs : Vec F S10112x64 .f32) :=
  kernelRunB c (grid2.coords t) (ms2_0 t) (hs2_0 t) (ms2_1 t) (hs2_1 t) (ms2_2 t) (hs2_2 t) (ms2_3 t) (hs2_3 t) scM2 (Memref.isWhole_whole _) hc (iblk2 V c 0 t) (iblk2 V c 1 t) (iblk2 V c 2 t) xs
abbrev ptA2 (c : Dev nD) (t : Fin cfg2.N) (hc : condI (grid2.coords t)) : Vec F S1x10112x64 .f32 × Vec F S10112x64 .f32 :=
  (View.canon (runA2 V c t hc).1, View.canon (runA2 V c t hc).2.1)
abbrev ptB2 (c : Dev nD) (t : Fin cfg2.N) (hc : ¬condI (grid2.coords t)) (xs : Vec F S10112x64 .f32) : Vec F S1x10112x64 .f32 × Vec F S10112x64 .f32 :=
  (View.canon (runB2 V c t hc xs).1, View.canon (runB2 V c t hc xs).2.1)

/-- The output block and the accumulator after each grid point: the first column tile of a batch clears, the later ones add. -/
def outsAt2 (c : Dev nD) : (n : ℕ) → n < cfg2.N → Vec F S1x10112x64 .f32 × Vec F S10112x64 .f32
  | 0, hn => ptA2 V c ⟨0, hn⟩ ((hcondI ⟨0, hn⟩).mpr (Nat.zero_mod _))
  | n + 1, hn =>
    if hm : (n + 1) % 79 = 0 then ptA2 V c ⟨n + 1, hn⟩ ((hcondI ⟨n + 1, hn⟩).mpr hm)
    else ptB2 V c ⟨n + 1, hn⟩ (fun h => hm ((hcondI ⟨n + 1, hn⟩).mp h)) (outsAt2 c n (Nat.lt_of_succ_lt hn)).2

theorem outsAt2_A (c : Dev nD) (t : Fin cfg2.N) (hm : t.val % 79 = 0) :
    outsAt2 V c t.val t.isLt = ptA2 V c t ((hcondI t).mpr hm) := by
  obtain ⟨n, hn⟩ := t
  cases n with
  | zero => exact rfl
  | succ n => exact (dif_pos hm).trans rfl

theorem outsAt2_B (c : Dev nD) (t : Fin cfg2.N) (hm : ¬t.val % 79 = 0) :
    outsAt2 V c t.val t.isLt = ptB2 V c t (fun h => hm ((hcondI t).mp h)) (outsAt2 V c (t.val - 1) (Nat.lt_of_le_of_lt (Nat.sub_le _ _) t.isLt)).2 := by
  obtain ⟨n, hn⟩ := t
  cases n with
  | zero => exact absurd (Nat.zero_mod _) hm
  | succ n => exact (dif_neg hm).trans rfl

def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]; try rfl

/-- The accumulator's contents between grid points: arbitrary before the first, `outsAt2`'s second component after each. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-- The launch's proof data: each input block is its array's block, the output block and the accumulator follow `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- One grid point: the body run at the point's buffers takes the state before it to the state after it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_is]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  by_cases hm : t.val % 79 = 0
  · rw [outsAt2_A V c t hm]
    dsimp only [ptA2]
    by_cases hz : t.val = 0
    · rw [PhiS2_castSucc V c t, PhiS2_zero V c _ _ hz, PhiA2_eq]
      exact step_of_run (runA2 V c t ((hcondI t).mpr hm)).2.2 (coverA c _ _ _ _ _ _ _ _ _ _ _ _ _ _ _) (scoverA c _ _ _ _ _ _ _ _ _ _ _ _ _ _ _) .rfl _ _ _ _
    · rw [PhiS2_castSucc V c t, PhiS2_pos V c _ _ hz]
      exact step_of_run (runA2 V c t ((hcondI t).mpr hm)).2.2 (coverA c _ _ _ _ _ _ _ _ _ _ _ _ _ _ _) (scoverA c _ _ _ _ _ _ _ _ _ _ _ _ _ _ _)
        (by iintro H; iexists _; iexact H) _ _ _ _
  · rw [outsAt2_B V c t hm]
    dsimp only [ptB2]
    rw [PhiS2_castSucc V c t, PhiS2_pos V c _ _ (fun e => hm (by rw [e]))]
    exact step_of_run (runB2 V c t (fun h => hm ((hcondI t).mp h)) _).2.2 (coverB c _ _ _ _ _ _ _ _ _ _ _ _ _ _ _ _) (scoverB c _ _ _ _ _ _ _ _ _ _ _ _ _ _ _ _) .rfl _ _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 632 := N_2; omega), PhiA2_eq]
  iintro ⟨⟨HS, Hr⟩, Hg⟩
  isplitl [HS Hr]
  · isplitl [HS]
    · iexists _; iexact HS
    iexact Hr
  iexact Hg

end

end Cert.KernelIdeal.Hand

end
-- ==== Proof.KIdeal.Regs.lean ====
import proofs.«413038_j6820408066453_1_alg».proof.Proof.KIdeal.R0Data
import proofs.«413038_j6820408066453_1_alg».proof.Proof.KIdeal.R1Data
import proofs.«413038_j6820408066453_1_alg».proof.Proof.KIdeal.R2Data
import proofs.«413038_j6820408066453_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Va (c : Dev nD) (b : Ref sig .tc) : Buf (Elt F) ((c : Thread nD τ).loc b) := V3 m c b

def o0 (c : Dev nD) : Buf (Elt F) ((c : Thread nD τ).loc main_v17) := (dat0 (Va m) c).arrAt 3 cfg0.N

def outsA : Outs (F := F) := fun _ r c =>
  Function.update (fun r' : Ref sig .tc => m ((c : Thread nD τ).loc r')) main_v17 (o0 m c) r

abbrev Vb (c : Dev nD) (b : Ref sig .tc) : Buf (Elt F) ((c : Thread nD τ).loc b) := V5 m (outsA m) c b

def o1 (c : Dev nD) : Buf (Elt F) ((c : Thread nD τ).loc main_v19) := (dat1 (Vb m) c).arrAt 3 cfg1.N

def outsB : Outs (F := F) := fun _ r c =>
  Function.update (Function.update (fun r' : Ref sig .tc => m ((c : Thread nD τ).loc r')) main_v17 (o0 m c)) main_v19 (o1 m c) r

abbrev Vc (c : Dev nD) (b : Ref sig .tc) : Buf (Elt F) ((c : Thread nD τ).loc b) := V7 m (outsB m) c b

def o2 (c : Dev nD) : Buf (Elt F) ((c : Thread nD τ).loc main_v21) := (dat2 (Vc m) c).arrAt 3 cfg2.N

/-- What the three launches leave in their output arrays, each computed from the host state the one before left. -/
def outs : Outs (F := F) := fun _ r c =>
  Function.update (Function.update (Function.update (fun r' : Ref sig .tc => m ((c : Thread nD τ).loc r')) main_v17 (o0 m c)) main_v19 (o1 m c)) main_v21 (o2 m c) r

theorem outsA_17 (n : ℕ) (c : Dev nD) : outsA m n main_v17 c = o0 m c := by
  unfold outsA; rw [Function.update_self]
theorem outsB_17 (n : ℕ) (c : Dev nD) : outsB m n main_v17 c = o0 m c := by
  unfold outsB; rw [Function.update_of_ne (by decide), Function.update_self]
theorem outsB_19 (n : ℕ) (c : Dev nD) : outsB m n main_v19 c = o1 m c := by
  unfold outsB; rw [Function.update_self]
theorem outs_17 (n : ℕ) (c : Dev nD) : outs m n main_v17 c = o0 m c := by
  unfold outs; rw [Function.update_of_ne (by decide), Function.update_of_ne (by decide), Function.update_self]
theorem outs_19 (n : ℕ) (c : Dev nD) : outs m n main_v19 c = o1 m c := by
  unfold outs; rw [Function.update_of_ne (by decide), Function.update_self]
theorem outs_21 (n : ℕ) (c : Dev nD) : outs m n main_v21 c = o2 m c := by
  unfold outs; rw [Function.update_self]

theorem V5_outs (c : Dev nD) : V5 m (outs m) c = V5 m (outsA m) c := by
  unfold V5 V4; rw [outs_17, outsA_17]

theorem V7_outs (c : Dev nD) : V7 m (outs m) c = V7 m (outsB m) c := by
  unfold V7 V6 V5 V4; rw [outs_17, outs_19, outsB_17, outsB_19]

theorem carry0 (c : Dev nD) (b : Ref sig .tc) (h : b ∉ ([main_v17] : List (Ref sig .tc))) : V4 m (outs m) c b = Va m c b :=
  V4_of m (outs m) c b h

theorem carry1 (c : Dev nD) (b : Ref sig .tc) (h : b ∉ ([main_v19] : List (Ref sig .tc))) : V6 m (outs m) c b = Vb m c b :=
  (V6_of m (outs m) c b h).trans (congrFun (V5_outs m c) (Proc.devRef .tc b))

theorem carry2 (c : Dev nD) (b : Ref sig .tc) (h : b ∉ ([main_v21] : List (Ref sig .tc))) : V8 m (outs m) c b = Vc m c b :=
  (V8_of m (outs m) c b h).trans (congrFun (V7_outs m c) (Proc.devRef .tc b))

def pdats : (p : Fin 3) → (c : Dev nD) → Dat τ (Elt F) Unit ℕ (UR sig nD τ) ℕ (cfgs p) c
  | ⟨0, _⟩ => fun c => dat0 (Va m) c
  | ⟨1, _⟩ => fun c => dat1 (Vb m) c
  | ⟨2, _⟩ => fun c => dat2 (Vc m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) : ∀ w, (dat0 (Va m) c).arrAt w cfg0.N = V4 m (outs m) c (Pipeline.arrRef spec0 w)
  | ⟨0, _⟩ => (((dat0 (Va m) c).arrAt_in 0 rfl _).trans (A_eq0 (Va m) c 0)).trans (carry0 m c main_v15 (by decide)).symm
  | ⟨1, _⟩ => (((dat0 (Va m) c).arrAt_in 1 rfl _).trans (A_eq0 (Va m) c 1)).trans (carry0 m c main_v0 (by decide)).symm
  | ⟨2, _⟩ => (((dat0 (Va m) c).arrAt_in 2 rfl _).trans (A_eq0 (Va m) c 2)).trans (carry0 m c main_v16 (by decide)).symm
  | ⟨3, _⟩ => by
    show _ = V4 m (outs m) c main_v17
    unfold V4
    rw [Function.update_self, outs_17]
    rfl

theorem hrest0 (c : Dev nD) : ∀ b, b ∉ Finset.univ.image (Pipeline.arrRef spec0) → V4 m (outs m) c b = Va m c b :=
  fun b hb => carry0 m c b (fun h => hb (by rw [List.mem_singleton] at h; subst h; exact Finset.mem_image.mpr ⟨3, Finset.mem_univ _, rfl⟩))

set_option backward.isDefEq.respectTransparency.types false in
/-- Launch 0 as a segment of @main: its arrays split off the host state on entry and joined back, output replaced, on exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) : ∀ w, (dat1 (Vb m) c).arrAt w cfg1.N = V6 m (outs m) c (Pipeline.arrRef spec1 w)
  | ⟨0, _⟩ => (((dat1 (Vb m) c).arrAt_in 0 rfl _).trans (A_eq1 (Vb m) c 0)).trans (carry1 m c main_v15 (by decide)).symm
  | ⟨1, _⟩ => (((dat1 (Vb m) c).arrAt_in 1 rfl _).trans (A_eq1 (Vb m) c 1)).trans (carry1 m c main_v17 (by decide)).symm
  | ⟨2, _⟩ => (((dat1 (Vb m) c).arrAt_in 2 rfl _).trans (A_eq1 (Vb m) c 2)).trans (carry1 m c main_v18 (by decide)).symm
  | ⟨3, _⟩ => by
    show _ = V6 m (outs m) c main_v19
    unfold V6
    rw [Function.update_self, outs_19]
    rfl

theorem hrest1 (c : Dev nD) : ∀ b, b ∉ Finset.univ.image (Pipeline.arrRef spec1) → V6 m (outs m) c b = Vb m c b :=
  fun b hb => carry1 m c b (fun h => hb (by rw [List.mem_singleton] at h; subst h; exact Finset.mem_image.mpr ⟨3, Finset.mem_univ _, rfl⟩))

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vb m) c)
    unfold Pipeline.ΦA
    iintro ⟨Hp, -, Hr⟩
    isplitl [Hr]; · iexact Hr
    iexact Hp
  hout c := by
    rw [Pipeline.ownSems0_none]
    refine BIBase.Entails.trans (hout1 (Vb m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w, (dat2 (Vc m) c).arrAt w cfg2.N = V8 m (outs m) c (Pipeline.arrRef spec2 w)
  | ⟨0, _⟩ => (((dat2 (Vc m) c).arrAt_in 0 rfl _).trans (A_eq2 (Vc m) c 0)).trans (carry2 m c main_v15 (by decide)).symm
  | ⟨1, _⟩ => (((dat2 (Vc m) c).arrAt_in 1 rfl _).trans (A_eq2 (Vc m) c 1)).trans (carry2 m c main_v19 (by decide)).symm
  | ⟨2, _⟩ => (((dat2 (Vc m) c).arrAt_in 2 rfl _).trans (A_eq2 (Vc m) c 2)).trans (carry2 m c main_v20 (by decide)).symm
  | ⟨3, _⟩ => by
    show _ = V8 m (outs m) c main_v21
    unfold V8
    rw [Function.update_self, outs_21]
    rfl

theorem hrest2 (c : Dev nD) : ∀ b, b ∉ Finset.univ.image (Pipeline.arrRef spec2) → V8 m (outs m) c b = Vc m c b :=
  fun b hb => carry2 m c b (fun h => hb (by rw [List.mem_singleton] at h; subst h; exact Finset.mem_image.mpr ⟨3, Finset.mem_univ _, rfl⟩))

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (V7 m (outsB m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vc m) c)
    unfold Pipeline.ΦA
    iintro ⟨Hp, -, Hr⟩
    isplitl [Hr]; · iexact Hr
    iexact Hp
  hout c := by
    rw [Pipeline.ownSems0_none]
    refine BIBase.Entails.trans (hout2 (Vc m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc m c) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIdeal.Launch.lean ====
import proofs.«413038_j6820408066453_1_alg».proof.Proof.KIdeal.Regs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- What a final memory holds on one device: the result buffer at the chained value, every argument as launched. -/
abbrev PostAt (outs : Outs (F := F)) (c : Dev nD) (mem : (ℓ : Loc nD τ sig) → Buf (Elt F) ℓ) : Prop :=
  mem ((c.tc : Thread nD τ).loc main_v22) = V9 m outs c main_v22
    ∧ mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)

set_option backward.isDefEq.respectTransparency.types false in
/-- The chain of host stretches and launches, with the result buffer named: given each launch as a segment, @main ends at `PostAt`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD, PostAt m outs c r.2.mem) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, hpre1 c, hpost1 c, hpre2 c, hpost2 c, sep_mono .rfl (hE3 c)⟩)
    (hinit := ?_) (QY := fun c s => PostAt m outs c s.mem)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c)⟩
    · iexact HSI

set_option backward.isDefEq.respectTransparency.types false in
theorem run_main : θ_run defs (onTc (τ := τ) (main (F := F))) ⟨m, fun _ => 0, ρ⟩ (fun r => ∀ c : Dev nD, PostAt m (outs m) c r.2.mem) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V5_outs]; exact .rfl) (fun c => .rfl)
    (reg2 m) (fun c => by rw [V7_outs]; exact .rfl) (fun c => .rfl)

end Cert.KernelIdeal.Hand

end
-- ==== Proof.Spec.lean ====
import Idealize.ShloMosaic.PureOps.Ideal
import Idealize.ShloMosaic.Lib.ValueIdx

noncomputable section

namespace Cert.GcnSpec

open Idealize.ShloMosaic

abbrev SX : Shape := ⟨3, ![8, 10000, 64]⟩

abbrev SXp : Shape := ⟨3, ![8, 10112, 64]⟩

abbrev SW : Shape := ⟨2, ![64, 64]⟩

abbrev SA : Shape := ⟨2, ![10112, 10112]⟩

abbrev SE : Shape := ⟨1, ![160000]⟩

def tileCol (k : Fin 79) (c' : Fin 128) : Fin 10112 := ⟨128 * k.val + c'.val, by have := k.isLt; have := c'.isLt; omega⟩

def linReluP (h : SXp.Idx → EReal) (Wt : SW.Idx → EReal) (b : Fin 8) (n : Fin 10112) (f : Fin 64) : EReal :=
  max (∑ d : Fin 64, h (ValueIdx.ix3 b n d) * Wt (ValueIdx.ix2 d f)) 0

def denseE (A : SA.Idx → EReal) (h : SXp.Idx → EReal) (Wt : SW.Idx → EReal) : SXp.Idx → EReal :=
  fun i => ∑ k : Fin 79, ∑ c' : Fin 128,
    A (ValueIdx.ix2 (n0 := 10112) (n1 := 10112) (i 1) (tileCol k c')) * linReluP h Wt (i 0) (tileCol k c') (i 2)

def colOf (cols : SE.Idx → BitVec 32) (e : Fin 160000) : Fin 10000 :=
  ⟨min (cols (ValueIdx.ix1 e)).toNat 9999, by omega⟩

def sparseE (h : SX.Idx → EReal) (W : SW.Idx → EReal) (vals : SE.Idx → EReal) (rows cols : SE.Idx → BitVec 32) :
    SX.Idx → EReal :=
  fun i => ∑ e : Fin 160000,
    if (rows (ValueIdx.ix1 e)).toNat = (i 1).val then
      max (∑ d : Fin 64, h (ValueIdx.ix3 (n0 := 8) (n1 := 10000) (n2 := 64) (i 0) (colOf cols e) d)
            * W (ValueIdx.ix2 (n0 := 64) (n1 := 64) (i 2) d)) 0 * vals (ValueIdx.ix1 e)
    else 0

def adjE (vals : SE.Idx → EReal) (rows cols : SE.Idx → BitVec 32) : SA.Idx → EReal :=
  fun i => ∑ e : Fin 160000,
    if (rows (ValueIdx.ix1 e)).toNat = (i 0).val ∧ (cols (ValueIdx.ix1 e)).toNat = (i 1).val then vals (ValueIdx.ix1 e) else 0

def padE (x : SX.Idx → EReal) : SXp.Idx → EReal :=
  fun i => if h : (i 1).val < 10000 then x (ValueIdx.ix3 (n0 := 8) (n1 := 10000) (n2 := 64) (i 0) ⟨(i 1).val, h⟩ (i 2)) else 0

def transpE (W : SW.Idx → EReal) : SW.Idx → EReal :=
  fun i => W (ValueIdx.ix2 (n0 := 64) (n1 := 64) (i 1) (i 0))

def sliceE (y : SXp.Idx → EReal) : SX.Idx → EReal :=
  fun i => y (ValueIdx.ix3 (n0 := 8) (n1 := 10112) (n2 := 64) (i 0) ⟨(i 1).val, by have := (i 1).isLt; simp at this; omega⟩ (i 2))

def kernelE (x : SX.Idx → EReal) (W0 W1 W2 : SW.Idx → EReal) (vals : SE.Idx → EReal) (rows cols : SE.Idx → BitVec 32) : SX.Idx → EReal :=
  sliceE (denseE (adjE vals rows cols) (denseE (adjE vals rows cols) (denseE (adjE vals rows cols) (padE x) (transpE W0)) (transpE W1)) (transpE W2))

def referenceE (x : SX.Idx → EReal) (W0 W1 W2 : SW.Idx → EReal) (vals : SE.Idx → EReal) (rows cols : SE.Idx → BitVec 32) : SX.Idx → EReal :=
  sparseE (sparseE (sparseE x W0 vals rows cols) W1 vals rows cols) W2 vals rows cols

end Cert.GcnSpec

end
-- ==== Proof.KIdeal.Pieces.lean ====
import proofs.«413038_j6820408066453_1_alg».proof.Proof.KIdeal.Body
import proofs.«413038_j6820408066453_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

private theorem hz2 : (![0, 0] : Fin 2 → Nat) = fun _ => 0 := funext fun a => by fin_cases a <;> rfl
private theorem hz3 : (![0, 0, 0] : Fin 3 → Nat) = fun _ => 0 := funext fun a => by fin_cases a <;> rfl

private theorem readCov_cons_unit_zero {S : Shape} {e : EltTy} {Val : EltTy → Type} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The pieces the two runs write, read back, are the body's payloads of the loaded blocks. -/
theorem soutA_eq (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) :
    View.canon (kernelRunA c i arg2 harg2 arg3 harg3 arg4 harg4 arg5 harg5 arg6 harg6 hc x2 x3 x4).2.1 = k0_pay2 x3 x4 x2 (k0_pay1 (F := F)) := by
  unfold kernelRunA
  dsimp only
  sl_unfold_words
  rw [View.canon_cons_unit_zero (S := S10112x64) hz2, View.readCov_unit_zero (S := S10112x64) _ hz2]
  simp only [View.readAt_eq_ld, harg2.read_unread, harg3.read_unread, harg4.read_unread, View.ld_unit_zero (S := S10112x128) hz2, View.ld_unit_zero (S := S1x128x64) hz3, View.ld_unit_zero (S := S64x64) hz2]

theorem outA_eq (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : condI i) (x2 : Vec F S10112x128 .f32) (x3 : Vec F S1x128x64 .f32) (x4 : Vec F S64x64 .f32) :
    View.canon (kernelRunA c i arg2 harg2 arg3 harg3 arg4 harg4 arg5 harg5 arg6 harg6 hc x2 x3 x4).1 = k0_pay3 (k0_pay2 x3 x4 x2 (k0_pay1 (F := F))) := by
  unfold kernelRunA
  dsimp only
  sl_unfold_words
  rw [View.canon_unit_zero hz3]
  simp only [View.readAt_eq_ld, harg2.read_unread, harg3.read_unread, harg4.read_unread, View.ld_unit_zero (S := S10112x128) hz2, View.ld_unit_zero (S := S1x128x64) hz3, View.ld_unit_zero (S := S64x64) hz2, readCov_cons_unit_zero (S := S10112x64) _ hz2, View.readCov_unit_zero (S := S10112x64) _ hz2]

theorem soutB_eq (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) :
    View.canon (kernelRunB c i arg2 harg2 arg3 harg3 arg4 harg4 arg5 harg5 arg6 harg6 hc x2 x3 x4 xs).2.1 = k0_pay2 x3 x4 x2 xs := by
  unfold kernelRunB
  dsimp only
  sl_unfold_words
  rw [View.canon_unit_zero hz2]
  simp only [View.readAt_eq_ld, harg2.read_unread, harg3.read_unread, harg4.read_unread, harg6.read_unread, View.ld_unit_zero (S := S10112x128) hz2, View.ld_unit_zero (S := S1x128x64) hz3, View.ld_unit_zero (S := S64x64) hz2, View.ld_unit_zero (S := S10112x64) hz2]

theorem outB_eq (c : Dev nD) (i : grid0.Coords) (arg2 : Memref sig .tc .vmem S10112x128 .f32) (harg2 : arg2.IsWhole) (arg3 : Memref sig .tc .vmem S1x128x64 .f32) (harg3 : arg3.IsWhole) (arg4 : Memref sig .tc .vmem S64x64 .f32) (harg4 : arg4.IsWhole) (arg5 : Memref sig .tc .vmem S1x10112x64 .f32) (harg5 : arg5.IsWhole) (arg6 : Memref sig .tc .vmem S10112x64 .f32) (harg6 : arg6.IsWhole) (hc : ¬condI i) (x2 : Vec F S10112x128 .f32) (x3 : Vec F S1x128x64 .f32) (x4 : Vec F S64x64 .f32) (xs : Vec F S10112x64 .f32) :
    View.canon (kernelRunB c i arg2 harg2 arg3 harg3 arg4 harg4 arg5 harg5 arg6 harg6 hc x2 x3 x4 xs).1 = k0_pay3 (k0_pay2 x3 x4 x2 xs) := by
  unfold kernelRunB
  dsimp only
  sl_unfold_words
  rw [View.canon_unit_zero hz3]
  simp only [View.readAt_eq_ld, harg2.read_unread, harg3.read_unread, harg4.read_unread, harg6.read_unread, View.ld_unit_zero (S := S10112x128) hz2, View.ld_unit_zero (S := S1x128x64) hz3, View.ld_unit_zero (S := S64x64) hz2, View.ld_unit_zero (S := S10112x64) hz2, View.readCov_unit_zero (S := S10112x64) _ hz2]

private theorem lhs_A_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
private theorem lhs_A_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
private theorem rhs_A_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
private theorem rhs_A_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

private theorem lhs_B_0 (i : S10112x64.Idx) (q : dot_S10112x128_S128x64_S10112x64_1_0_0_1_n_n.contr.Idx) :
    (dot_S10112x128_S128x64_S10112x64_1_0_0_1_n_n.lhsIdx i q 0).val = (i 0).val := by
  unfold DotDims.lhsIdx
  rw [dif_neg (show ¬(0 : Fin S10112x128.rank) ∈ dot_S10112x128_S128x64_S10112x64_1_0_0_1_n_n.lhsBatch by decide), dif_pos (show (0 : Fin S10112x128.rank) ∈ dot_S10112x128_S128x64_S10112x64_1_0_0_1_n_n.lhsNonContracting by decide)]
  rfl
private theorem lhs_B_1 (i : S10112x64.Idx) (q : dot_S10112x128_S128x64_S10112x64_1_0_0_1_n_n.contr.Idx) :
    (dot_S10112x128_S128x64_S10112x64_1_0_0_1_n_n.lhsIdx i q 1).val = (q ⟨0, by decide⟩).val :=
  dot_S10112x128_S128x64_S10112x64_1_0_0_1_n_n.lhsIdx_val_of_single rfl i q
private theorem rhs_B_0 (i : S10112x64.Idx) (q : dot_S10112x128_S128x64_S10112x64_1_0_0_1_n_n.contr.Idx) :
    (dot_S10112x128_S128x64_S10112x64_1_0_0_1_n_n.rhsIdx i q 0).val = (q ⟨0, by decide⟩).val :=
  dot_S10112x128_S128x64_S10112x64_1_0_0_1_n_n.rhsIdx_val_of_single rfl i q
private theorem rhs_B_1 (i : S10112x64.Idx) (q : dot_S10112x128_S128x64_S10112x64_1_0_0_1_n_n.contr.Idx) :
    (dot_S10112x128_S128x64_S10112x64_1_0_0_1_n_n.rhsIdx i q 1).val = (i 1).val := by
  unfold DotDims.rhsIdx
  rw [dif_neg (show ¬(1 : Fin S128x64.rank) ∈ dot_S10112x128_S128x64_S10112x64_1_0_0_1_n_n.rhsBatch by decide), dif_pos (show (1 : Fin S128x64.rank) ∈ dot_S10112x128_S128x64_S10112x64_1_0_0_1_n_n.rhsNonContracting by decide)]
  rfl

/-- Both matrix products at an index, as plain sums over the contracted axis. -/
private theorem mm_A_apply (l : FVec Ideal S128x64 .bf16) (r : FVec Ideal S64x64 .bf16) (a : Fin 128) (b : Fin 64) :
    matmul dot_S128x64_S64x64_S128x64_1_0_0_1_n_n none l r (constant S128x64 .f32 0x00000000#32) (ix2 a b) = ∑ k : Fin 64, l (ix2 a k) * r (ix2 k b) := by
  refine (Ideal.matmul_constant_zero_apply dot_S128x64_S64x64_S128x64_1_0_0_1_n_n none l r (ix2 a b)).trans ?_
  rw [← Equiv.sum_comp (ValueIdx.contrEquiv1 dot_S128x64_S64x64_S128x64_1_0_0_1_n_n 64 rfl rfl).symm]
  refine Finset.sum_congr rfl fun k _ => ?_
  have hk := ValueIdx.contrEquiv1_symm_val dot_S128x64_S64x64_S128x64_1_0_0_1_n_n 64 rfl rfl k
  have el : dot_S128x64_S64x64_S128x64_1_0_0_1_n_n.lhsIdx (ix2 a b) ((ValueIdx.contrEquiv1 dot_S128x64_S64x64_S128x64_1_0_0_1_n_n 64 rfl rfl).symm k) = ix2 a k := funext fun x => Fin.ext (by
    match x with
    | ⟨0, _⟩ => exact lhs_A_0 _ _
    | ⟨1, _⟩ => exact (lhs_A_1 _ _).trans hk)
  have er : dot_S128x64_S64x64_S128x64_1_0_0_1_n_n.rhsIdx (ix2 a b) ((ValueIdx.contrEquiv1 dot_S128x64_S64x64_S128x64_1_0_0_1_n_n 64 rfl rfl).symm k) = ix2 k b := funext fun x => Fin.ext (by
    match x with
    | ⟨0, _⟩ => exact (rhs_A_0 _ _).trans hk
    | ⟨1, _⟩ => exact rhs_A_1 _ _)
  rw [el, er]

private theorem mm_B_apply (l : FVec Ideal S10112x128 .bf16) (r : FVec Ideal S128x64 .bf16) (a : Fin 10112) (b : Fin 64) :
    matmul dot_S10112x128_S128x64_S10112x64_1_0_0_1_n_n none l r (constant S10112x64 .f32 0x00000000#32) (ix2 a b) = ∑ k : Fin 128, l (ix2 a k) * r (ix2 k b) := by
  refine (Ideal.matmul_constant_zero_apply dot_S10112x128_S128x64_S10112x64_1_0_0_1_n_n none l r (ix2 a b)).trans ?_
  rw [← Equiv.sum_comp (ValueIdx.contrEquiv1 dot_S10112x128_S128x64_S10112x64_1_0_0_1_n_n 128 rfl rfl).symm]
  refine Finset.sum_congr rfl fun k _ => ?_
  have hk := ValueIdx.contrEquiv1_symm_val dot_S10112x128_S128x64_S10112x64_1_0_0_1_n_n 128 rfl rfl k
  have el : dot_S10112x128_S128x64_S10112x64_1_0_0_1_n_n.lhsIdx (ix2 a b) ((ValueIdx.contrEquiv1 dot_S10112x128_S128x64_S10112x64_1_0_0_1_n_n 128 rfl rfl).symm k) = ix2 a k := funext fun x => Fin.ext (by
    match x with
    | ⟨0, _⟩ => exact lhs_B_0 _ _
    | ⟨1, _⟩ => exact (lhs_B_1 _ _).trans hk)
  have er : dot_S10112x128_S128x64_S10112x64_1_0_0_1_n_n.rhsIdx (ix2 a b) ((ValueIdx.contrEquiv1 dot_S10112x128_S128x64_S10112x64_1_0_0_1_n_n 128 rfl rfl).symm k) = ix2 k b := funext fun x => Fin.ext (by
    match x with
    | ⟨0, _⟩ => exact (rhs_B_0 _ _).trans hk
    | ⟨1, _⟩ => exact rhs_B_1 _ _)
  rw [el, er]

theorem pay1_apply (j : S10112x64.Idx) : k0_pay1 (F := Ideal) j = 0 := by
  unfold k0_pay1
  refine (congrFun (shapeCast_self _ _) j).trans ?_
  exact Ideal.ofBits_zero_f32

/-- The accumulating payload at an index: the old entry plus the tile's row times relu of the feature tile times the weight. -/
theorem pay2_apply (x3 : Vec Ideal S1x128x64 .f32) (x4 : Vec Ideal S64x64 .f32) (x2 : Vec Ideal S10112x128 .f32) (s : Vec Ideal S10112x64 .f32)
    (r : Fin 10112) (f : Fin 64) :
    k0_pay2 (F := Ideal) x3 x4 x2 s (ix2 r f)
      = s (ix2 r f) + ∑ c' : Fin 128, x2 (ix2 r c') * max (∑ d : Fin 64, x3 (ix3 (0 : Fin 1) c' d) * x4 (ix2 d f)) 0 := by
  unfold k0_pay2
  refine (congrFun (shapeCast_self _ _) (ix2 r f)).trans ?_
  refine (addf_apply _ _ _).trans ?_
  refine congrArg (fun z => s (ix2 r f) + z) ?_
  refine (mm_B_apply _ _ r f).trans ?_
  refine Finset.sum_congr rfl fun c' _ => ?_
  refine congrArg₂ (fun a b : EReal => a * b) ?_ ?_
  · exact congrFun (shapeCast_self x2 _) (ix2 r c')
  · show max (matmul dot_S128x64_S64x64_S128x64_1_0_0_1_n_n none _ _ (constant S128x64 .f32 0x00000000#32) (ix2 c' f)) (Ideal.ofBits .f32 0x00000000#32) = _
    rw [Ideal.ofBits_zero_f32]
    refine congrArg (fun z : EReal => max z 0) ?_
    refine (mm_A_apply _ _ c' f).trans ?_
    refine Finset.sum_congr rfl fun d _ => ?_
    exact congrArg₂ (fun a b : EReal => a * b) (shapeCast_1ab_ab_apply x3 _ c' d) (congrFun (shapeCast_self x4 _) (ix2 d f))

theorem pay3_apply (v : Vec Ideal S10112x64 .f32) (r : Fin 10112) (f : Fin 64) :
    k0_pay3 (F := Ideal) v (ix3 (0 : Fin 1) r f) = v (ix2 r f) := by
  unfold k0_pay3
  exact shapeCast_ab_1ab_apply v _ 0 r f

open Cert.GcnSpec (tileCol linReluP denseE)

def tileTerm (A : S10112x10112.Idx → EReal) (h : S8x10112x64.Idx → EReal) (Wt : S64x64.Idx → EReal)
    (b : Fin 8) (r : Fin 10112) (f : Fin 64) (k : ℕ) : EReal :=
  if hk : k < 79 then ∑ c' : Fin 128, A (ix2 r (tileCol ⟨k, hk⟩ c')) * linReluP h Wt b (tileCol ⟨k, hk⟩ c') f else 0

theorem term_congr (A : S10112x10112.Idx → EReal) (h : S8x10112x64.Idx → EReal) (Wt : S64x64.Idx → EReal)
    (a : Vec Ideal S10112x128 .f32) (x : Vec Ideal S1x128x64 .f32) (w : Vec Ideal S64x64 .f32)
    (b : Fin 8) (k : ℕ) (hk : k < 79) (r : Fin 10112) (f : Fin 64)
    (ha : ∀ c' : Fin 128, a (ix2 r c') = A (ix2 r (tileCol ⟨k, hk⟩ c')))
    (hx : ∀ (c' : Fin 128) (d : Fin 64), x (ix3 (0 : Fin 1) c' d) = h (ix3 b (tileCol ⟨k, hk⟩ c') d))
    (hw : ∀ d : Fin 64, w (ix2 d f) = Wt (ix2 d f)) :
    (∑ c' : Fin 128, a (ix2 r c') * max (∑ d : Fin 64, x (ix3 (0 : Fin 1) c' d) * w (ix2 d f)) 0)
      = tileTerm A h Wt b r f k := by
  unfold tileTerm linReluP
  rw [dif_pos hk]
  refine Finset.sum_congr rfl fun c' _ => ?_
  rw [ha c']
  simp only [hx, hw]

theorem denseE_apply (A : S10112x10112.Idx → EReal) (h : S8x10112x64.Idx → EReal) (Wt : S64x64.Idx → EReal)
    (b : Fin 8) (r : Fin 10112) (f : Fin 64) :
    denseE A h Wt (ix3 b r f) = ∑ k ∈ Finset.range 79, tileTerm A h Wt b r f k := by
  rw [Finset.sum_range]
  show (∑ k : Fin 79, ∑ c' : Fin 128, A (ix2 r (tileCol k c')) * linReluP h Wt b (tileCol k c') f) = _
  refine Finset.sum_congr rfl fun k _ => ?_
  unfold tileTerm
  rw [dif_pos k.isLt]

/-- A family of accumulators that starts each batch with its first tile's payload and adds each later tile's payload holds,
    after the last tile of a batch, the dense layer: the blocks being the tiles of `A`, `h` and `Wt`. -/
theorem dense_last {N : ℕ} (A : S10112x10112.Idx → EReal) (h : S8x10112x64.Idx → EReal) (Wt : S64x64.Idx → EReal)
    (a : Fin N → Vec Ideal S10112x128 .f32) (x : Fin N → Vec Ideal S1x128x64 .f32) (w : Fin N → Vec Ideal S64x64 .f32)
    (ha : ∀ (t : Fin N) (k : Fin 79), t.val % 79 = k.val → ∀ (r : Fin 10112) (c' : Fin 128), a t (ix2 r c') = A (ix2 r (tileCol k c')))
    (hx : ∀ (t : Fin N) (b : Fin 8), t.val / 79 = b.val → ∀ k : Fin 79, t.val % 79 = k.val →
      ∀ (c' : Fin 128) (d : Fin 64), x t (ix3 (0 : Fin 1) c' d) = h (ix3 b (tileCol k c') d))
    (hw : ∀ (t : Fin N) (d f : Fin 64), w t (ix2 d f) = Wt (ix2 d f))
    (s : (n : ℕ) → n < N → Vec Ideal S10112x64 .f32)
    (hfirst : ∀ t : Fin N, t.val % 79 = 0 → s t.val t.isLt = k0_pay2 (F := Ideal) (x t) (w t) (a t) (k0_pay1 (F := Ideal)))
    (hlater : ∀ t : Fin N, ¬t.val % 79 = 0 →
      s t.val t.isLt = k0_pay2 (F := Ideal) (x t) (w t) (a t) (s (t.val - 1) (Nat.lt_of_le_of_lt (Nat.sub_le _ _) t.isLt)))
    (t : Fin N) (b : Fin 8) (hb : t.val / 79 = b.val) (h78 : t.val % 79 = 78) (r : Fin 10112) (f : Fin 64) :
    s t.val t.isLt (ix2 r f) = denseE A h Wt (ix3 b r f) := by
  have term : ∀ (t : Fin N) (b : Fin 8), t.val / 79 = b.val →
      (∑ c' : Fin 128, a t (ix2 r c') * max (∑ d : Fin 64, x t (ix3 (0 : Fin 1) c' d) * w t (ix2 d f)) 0)
        = tileTerm A h Wt b r f (t.val % 79) := fun t b hb =>
    term_congr A h Wt (a t) (x t) (w t) b (t.val % 79) (Nat.mod_lt _ (by decide)) r f
      (fun c' => ha t ⟨t.val % 79, Nat.mod_lt _ (by decide)⟩ rfl r c')
      (fun c' d => hx t b hb ⟨t.val % 79, Nat.mod_lt _ (by decide)⟩ rfl c' d)
      (fun d => hw t d f)
  have acc : ∀ (n : ℕ) (hn : n < N) (b : Fin 8), n / 79 = b.val →
      s n hn (ix2 r f) = ∑ k ∈ Finset.range (n % 79 + 1), tileTerm A h Wt b r f k := by
    intro n
    induction n with
    | zero =>
      intro hn b hb
      rw [hfirst ⟨0, hn⟩ (Nat.zero_mod _), pay2_apply, pay1_apply, zero_add, term ⟨0, hn⟩ b hb]
      show _ = ∑ k ∈ Finset.range (0 % 79 + 1), _
      rw [Nat.zero_mod, Finset.sum_range_one]
    | succ n ih =>
      intro hn b hb
      by_cases hm : (n + 1) % 79 = 0
      · rw [hfirst ⟨n + 1, hn⟩ hm, pay2_apply, pay1_apply, zero_add, term ⟨n + 1, hn⟩ b hb]
        show tileTerm _ _ _ b r f ((n + 1) % 79) = _
        rw [hm, Finset.sum_range_one]
      · have hs : (n + 1) % 79 = n % 79 + 1 := by omega
        rw [hlater ⟨n + 1, hn⟩ hm, pay2_apply, term ⟨n + 1, hn⟩ b hb]
        show s n _ (ix2 r f) + tileTerm _ _ _ b r f ((n + 1) % 79) = _
        rw [ih (Nat.lt_of_succ_lt hn) b (by omega), hs, Finset.sum_range_succ _ (n % 79 + 1)]
  rw [acc t.val t.isLt b hb, denseE_apply, h78]

end Cert.KernelIdeal.Hand

end
-- ==== Proof.KIdeal.R0Value.lean ====
import proofs.«413038_j6820408066453_1_alg».proof.Proof.KIdeal.Pieces
import proofs.«413038_j6820408066453_1_alg».proof.Proof.KIdeal.R0Data
import proofs.«413038_j6820408066453_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GcnSpec (tileCol linReluP denseE)

/-- The four index maps in closed form: tile `t % 79` of batch `t / 79`. -/
theorem idx0_facts : ∀ t : Fin cfg0.N,
    win0_0.index t (0 : Fin 2) = 0 ∧ win0_0.index t (1 : Fin 2) = t.val % 79
    ∧ win0_1.index t (0 : Fin 3) = t.val / 79 ∧ win0_1.index t (1 : Fin 3) = t.val % 79 ∧ win0_1.index t (2 : Fin 3) = 0
    ∧ win0_2.index t (0 : Fin 2) = 0 ∧ win0_2.index t (1 : Fin 2) = 0
    ∧ win0_3.index t (0 : Fin 3) = t.val / 79 ∧ win0_3.index t (1 : Fin 3) = 0 ∧ win0_3.index t (2 : Fin 3) = 0 :=
  (by decide +kernel : ∀ t : Fin grid0.N, _)

section
variable (V : (c : Dev nD) → (b : Ref sig .tc) → Buf (Elt Ideal) ((c : Thread nD τ).loc b)) (c : Dev nD)

abbrev ablk0 (t : Fin cfg0.N) : Vec Ideal S10112x128 .f32 := iblk0 V c 0 t

abbrev hblk0 (t : Fin cfg0.N) : Vec Ideal S1x128x64 .f32 := iblk0 V c 1 t

abbrev wblk0 (t : Fin cfg0.N) : Vec Ideal S64x64 .f32 := iblk0 V c 2 t

theorem ablk0_apply (t : Fin cfg0.N) (k : Fin 79) (hk : t.val % 79 = k.val) (r : Fin 10112) (c' : Fin 128) :
    ablk0 V c t (ix2 r c') = (V c main_v15 : S10112x10112.Idx → EReal) (ix2 r (tileCol k c')) := by
  obtain ⟨e0, e1, -⟩ := idx0_facts t
  show V c main_v15 (((cfg0.win 0).blk t).view.emb (ix2 r c')) = V c main_v15 (ix2 r (tileCol k c'))
  refine congrArg (V c main_v15) (funext fun a => Fin.ext ?_)
  match a with
  | ⟨0, _⟩ => show win0_0.index t (0 : Fin 2) * 10112 + 1 * r.val = r.val; omega
  | ⟨1, _⟩ => show win0_0.index t (1 : Fin 2) * 128 + 1 * c'.val = 128 * k.val + c'.val; omega

theorem hblk0_apply (t : Fin cfg0.N) (b : Fin 8) (hb : t.val / 79 = b.val) (k : Fin 79) (hk : t.val % 79 = k.val)
    (c' : Fin 128) (d : Fin 64) :
    hblk0 V c t (ix3 (0 : Fin 1) c' d) = (V c main_v0 : S8x10112x64.Idx → EReal) (ix3 b (tileCol k c') d) := by
  obtain ⟨-, -, e2, e3, e4, -⟩ := idx0_facts t
  show V c main_v0 (((cfg0.win 1).blk t).view.emb (ix3 (0 : Fin 1) c' d)) = V c main_v0 (ix3 b (tileCol k c') d)
  refine congrArg (V c main_v0) (funext fun a => Fin.ext ?_)
  match a with
  | ⟨0, _⟩ => show win0_1.index t (0 : Fin 3) * 1 + 1 * 0 = b.val; omega
  | ⟨1, _⟩ => show win0_1.index t (1 : Fin 3) * 128 + 1 * c'.val = 128 * k.val + c'.val; omega
  | ⟨2, _⟩ => show win0_1.index t (2 : Fin 3) * 64 + 1 * d.val = d.val; omega

theorem wblk0_apply (t : Fin cfg0.N) (d f : Fin 64) :
    wblk0 V c t (ix2 d f) = (V c main_v16 : S64x64.Idx → EReal) (ix2 d f) := by
  obtain ⟨-, -, -, -, -, e5, e6, -⟩ := idx0_facts t
  show V c main_v16 (((cfg0.win 2).blk t).view.emb (ix2 d f)) = V c main_v16 (ix2 d f)
  refine congrArg (V c main_v16) (funext fun a => Fin.ext ?_)
  match a with
  | ⟨0, _⟩ => show win0_2.index t (0 : Fin 2) * 64 + 1 * d.val = d.val; omega
  | ⟨1, _⟩ => show win0_2.index t (1 : Fin 2) * 64 + 1 * f.val = f.val; omega

/-- A batch's first tile leaves its payload over a zero accumulator; a later tile adds its payload to what the tile before left. -/
theorem acc_first0 (t : Fin cfg0.N) (hm : t.val % 79 = 0) :
    (outsAt0 V c t.val t.isLt).2 = k0_pay2 (F := Ideal) (hblk0 V c t) (wblk0 V c t) (ablk0 V c t) (k0_pay1 (F := Ideal)) := by
  rw [outsAt0_A V c t hm]
  dsimp only [ptA0]
  exact soutA_eq c _ _ _ _ _ _ _ _ _ _ _ _ _ _ _

theorem acc_later0 (t : Fin cfg0.N) (hm : ¬t.val % 79 = 0) :
    (outsAt0 V c t.val t.isLt).2 = k0_pay2 (F := Ideal) (hblk0 V c t) (wblk0 V c t) (ablk0 V c t)
      (outsAt0 V c (t.val - 1) (Nat.lt_of_le_of_lt (Nat.sub_le _ _) t.isLt)).2 := by
  rw [outsAt0_B V c t hm]
  dsimp only [ptB0]
  exact soutB_eq c _ _ _ _ _ _ _ _ _ _ _ _ _ _ _ _

theorem out_acc0 (t : Fin cfg0.N) : (outsAt0 V c t.val t.isLt).1 = k0_pay3 (F := Ideal) (outsAt0 V c t.val t.isLt).2 := by
  by_cases hm : t.val % 79 = 0
  · rw [outsAt0_A V c t hm]
    dsimp only [ptA0]
    exact (outA_eq c _ _ _ _ _ _ _ _ _ _ _ _ _ _ _).trans (congrArg k0_pay3 (soutA_eq c _ _ _ _ _ _ _ _ _ _ _ _ _ _ _).symm)
  · rw [outsAt0_B V c t hm]
    dsimp only [ptB0]
    exact (outB_eq c _ _ _ _ _ _ _ _ _ _ _ _ _ _ _ _).trans (congrArg k0_pay3 (soutB_eq c _ _ _ _ _ _ _ _ _ _ _ _ _ _ _ _).symm)

theorem oblk0_emb (t : Fin cfg0.N) (b : Fin 8) (hb : t.val / 79 = b.val) (r : Fin 10112) (f : Fin 64) :
    ((cfg0.win 3).blk t).view.emb (ix3 (0 : Fin 1) r f) = (ix3 b r f : S8x10112x64.Idx) := by
  obtain ⟨-, -, -, -, -, -, -, e7, e8, e9⟩ := idx0_facts t
  refine funext fun a => Fin.ext ?_
  match a with
  | ⟨0, _⟩ => show win0_3.index t (0 : Fin 3) * 1 + 1 * 0 = b.val; omega
  | ⟨1, _⟩ => show win0_3.index t (1 : Fin 3) * 10112 + 1 * r.val = r.val; omega
  | ⟨2, _⟩ => show win0_3.index t (2 : Fin 3) * 64 + 1 * f.val = f.val; omega

/-- The block written back after a batch's last tile is that batch's slab of the dense layer. -/
theorem flushed0_eq (t : Fin cfg0.N) (hf : (cfg0.win 3).flush t = true) :
    (dat0 V c).flushed 3 t
      = ((cfg0.win 3).blk t).view.read (Elt Ideal) (denseE (V c main_v15) (V c main_v0) (V c main_v16)) := by
  have h78 : t.val % 79 = 78 := (flush0_3 t).mp hf
  have hN : cfg0.N = 632 := N_0
  have hb : t.val / 79 < 8 := by have := t.isLt; omega
  show (cfg0.win 3).cut (grid0.coords t) ((dat0 V c).after 3 t) = _
  rw [after0_3]
  funext y
  obtain ⟨z, r, f, rfl⟩ : ∃ (z : Fin 1) (r : Fin 10112) (f : Fin 64), y = ix3 z r f := ⟨y 0, y 1, y 2, eq_ix3 y⟩
  obtain rfl : z = 0 := Subsingleton.elim _ _
  show (outsAt0 V c t.val t.isLt).1 (ix3 (0 : Fin 1) r f)
    = denseE (V c main_v15) (V c main_v0) (V c main_v16) (((cfg0.win 3).blk t).view.emb (ix3 (0 : Fin 1) r f))
  rw [oblk0_emb t ⟨t.val / 79, hb⟩ rfl r f, out_acc0 V c t, pay3_apply _ r f]
  exact dense_last (V c main_v15) (V c main_v0) (V c main_v16) (ablk0 V c) (hblk0 V c) (wblk0 V c)
    (ablk0_apply V c) (hblk0_apply V c) (wblk0_apply V c) (fun n hn => (outsAt0 V c n hn).2) (acc_first0 V c) (acc_later0 V c)
    t ⟨t.val / 79, hb⟩ rfl h78 r f

theorem mem_oblk0 (t : Fin cfg0.N) (i : S8x10112x64.Idx) :
    i ∈ ((cfg0.win 3).blk t).view.set ↔ ∀ a : Fin 3, win0_3.index t a * S1x10112x64.size a ≤ (i a).val ∧ (i a).val < win0_3.index t a * S1x10112x64.size a + S1x10112x64.size a := by
  show i ∈ ((View.whole main_v17).slice (win0_3.rect t)).set ↔ _
  rw [View.set_slice_whole, Rect.mem_set_unit]
  exact Iff.rfl

/-- Every output entry lies in the block written back at its batch's last tile. -/
theorem cover0 (i : S8x10112x64.Idx) :
    ∃ t : Fin cfg0.N, (cfg0.win 3).flush t = true ∧ i ∈ ((cfg0.win 3).blk t).view.set := by
  have hN : cfg0.N = 632 := N_0
  have h0 : (i 0).val < 8 := (i 0).isLt
  have h1 : (i 1).val < 10112 := (i 1).isLt
  have h2 : (i 2).val < 64 := (i 2).isLt
  have ht : 79 * (i 0).val + 78 < cfg0.N := by omega
  refine ⟨⟨79 * (i 0).val + 78, ht⟩, (flush0_3 _).mpr (by show (79 * (i 0).val + 78) % 79 = 78; omega), ?_⟩
  rw [mem_oblk0]
  obtain ⟨-, -, -, -, -, -, -, e7, e8, e9⟩ := idx0_facts ⟨79 * (i 0).val + 78, ht⟩
  have e7' : win0_3.index ⟨79 * (i 0).val + 78, ht⟩ (0 : Fin 3) = (i 0).val := by rw [e7]; show (79 * (i 0).val + 78) / 79 = _; omega
  intro a
  match a with
  | ⟨0, _⟩ => show win0_3.index ⟨79 * (i 0).val + 78, ht⟩ (0 : Fin 3) * 1 ≤ (i 0).val ∧ (i 0).val < win0_3.index ⟨79 * (i 0).val + 78, ht⟩ (0 : Fin 3) * 1 + 1; omega
  | ⟨1, _⟩ => show win0_3.index ⟨79 * (i 0).val + 78, ht⟩ (1 : Fin 3) * 10112 ≤ (i 1).val ∧ (i 1).val < win0_3.index ⟨79 * (i 0).val + 78, ht⟩ (1 : Fin 3) * 10112 + 10112; omega
  | ⟨2, _⟩ => show win0_3.index ⟨79 * (i 0).val + 78, ht⟩ (2 : Fin 3) * 64 ≤ (i 2).val ∧ (i 2).val < win0_3.index ⟨79 * (i 0).val + 78, ht⟩ (2 : Fin 3) * 64 + 64; omega

/-- So the launch's output array is the dense layer of the arrays it was entered with. -/
theorem final0 : (dat0 (F := Ideal) V c).arrAt 3 cfg0.N = Cert.GcnSpec.denseE (V c main_v15) (V c main_v0) (V c main_v16) :=
  (dat0 V c).arrAt_eq_of_cover 3 (denseE (V c main_v15) (V c main_v0) (V c main_v16)) (fun t hf => flushed0_eq V c t hf) cover0

end

end Cert.KernelIdeal.Hand

end
-- ==== Proof.KIdeal.R1Value.lean ====
import proofs.«413038_j6820408066453_1_alg».proof.Proof.KIdeal.Pieces
import proofs.«413038_j6820408066453_1_alg».proof.Proof.KIdeal.R1Data
import proofs.«413038_j6820408066453_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GcnSpec (tileCol linReluP denseE)

/-- The four index maps in closed form: tile `t % 79` of batch `t / 79`. -/
theorem idx1_facts : ∀ t : Fin cfg1.N,
    win1_0.index t (0 : Fin 2) = 0 ∧ win1_0.index t (1 : Fin 2) = t.val % 79
    ∧ win1_1.index t (0 : Fin 3) = t.val / 79 ∧ win1_1.index t (1 : Fin 3) = t.val % 79 ∧ win1_1.index t (2 : Fin 3) = 0
    ∧ win1_2.index t (0 : Fin 2) = 0 ∧ win1_2.index t (1 : Fin 2) = 0
    ∧ win1_3.index t (0 : Fin 3) = t.val / 79 ∧ win1_3.index t (1 : Fin 3) = 0 ∧ win1_3.index t (2 : Fin 3) = 0 :=
  (by decide +kernel : ∀ t : Fin grid1.N, _)

section
variable (V : (c : Dev nD) → (b : Ref sig .tc) → Buf (Elt Ideal) ((c : Thread nD τ).loc b)) (c : Dev nD)

abbrev ablk1 (t : Fin cfg1.N) : Vec Ideal S10112x128 .f32 := iblk1 V c 0 t

abbrev hblk1 (t : Fin cfg1.N) : Vec Ideal S1x128x64 .f32 := iblk1 V c 1 t

abbrev wblk1 (t : Fin cfg1.N) : Vec Ideal S64x64 .f32 := iblk1 V c 2 t

theorem ablk1_apply (t : Fin cfg1.N) (k : Fin 79) (hk : t.val % 79 = k.val) (r : Fin 10112) (c' : Fin 128) :
    ablk1 V c t (ix2 r c') = (V c main_v15 : S10112x10112.Idx → EReal) (ix2 r (tileCol k c')) := by
  obtain ⟨e0, e1, -⟩ := idx1_facts t
  show V c main_v15 (((cfg1.win 0).blk t).view.emb (ix2 r c')) = V c main_v15 (ix2 r (tileCol k c'))
  refine congrArg (V c main_v15) (funext fun a => Fin.ext ?_)
  match a with
  | ⟨0, _⟩ => show win1_0.index t (0 : Fin 2) * 10112 + 1 * r.val = r.val; omega
  | ⟨1, _⟩ => show win1_0.index t (1 : Fin 2) * 128 + 1 * c'.val = 128 * k.val + c'.val; omega

theorem hblk1_apply (t : Fin cfg1.N) (b : Fin 8) (hb : t.val / 79 = b.val) (k : Fin 79) (hk : t.val % 79 = k.val)
    (c' : Fin 128) (d : Fin 64) :
    hblk1 V c t (ix3 (0 : Fin 1) c' d) = (V c main_v17 : S8x10112x64.Idx → EReal) (ix3 b (tileCol k c') d) := by
  obtain ⟨-, -, e2, e3, e4, -⟩ := idx1_facts t
  show V c main_v17 (((cfg1.win 1).blk t).view.emb (ix3 (0 : Fin 1) c' d)) = V c main_v17 (ix3 b (tileCol k c') d)
  refine congrArg (V c main_v17) (funext fun a => Fin.ext ?_)
  match a with
  | ⟨0, _⟩ => show win1_1.index t (0 : Fin 3) * 1 + 1 * 0 = b.val; omega
  | ⟨1, _⟩ => show win1_1.index t (1 : Fin 3) * 128 + 1 * c'.val = 128 * k.val + c'.val; omega
  | ⟨2, _⟩ => show win1_1.index t (2 : Fin 3) * 64 + 1 * d.val = d.val; omega

theorem wblk1_apply (t : Fin cfg1.N) (d f : Fin 64) :
    wblk1 V c t (ix2 d f) = (V c main_v18 : S64x64.Idx → EReal) (ix2 d f) := by
  obtain ⟨-, -, -, -, -, e5, e6, -⟩ := idx1_facts t
  show V c main_v18 (((cfg1.win 2).blk t).view.emb (ix2 d f)) = V c main_v18 (ix2 d f)
  refine congrArg (V c main_v18) (funext fun a => Fin.ext ?_)
  match a with
  | ⟨0, _⟩ => show win1_2.index t (0 : Fin 2) * 64 + 1 * d.val = d.val; omega
  | ⟨1, _⟩ => show win1_2.index t (1 : Fin 2) * 64 + 1 * f.val = f.val; omega

/-- A batch's first tile leaves its payload over a zero accumulator; a later tile adds its payload to what the tile before left. -/
theorem acc_first1 (t : Fin cfg1.N) (hm : t.val % 79 = 0) :
    (outsAt1 V c t.val t.isLt).2 = k0_pay2 (F := Ideal) (hblk1 V c t) (wblk1 V c t) (ablk1 V c t) (k0_pay1 (F := Ideal)) := by
  rw [outsAt1_A V c t hm]
  dsimp only [ptA1]
  exact soutA_eq c _ _ _ _ _ _ _ _ _ _ _ _ _ _ _

theorem acc_later1 (t : Fin cfg1.N) (hm : ¬t.val % 79 = 0) :
    (outsAt1 V c t.val t.isLt).2 = k0_pay2 (F := Ideal) (hblk1 V c t) (wblk1 V c t) (ablk1 V c t)
      (outsAt1 V c (t.val - 1) (Nat.lt_of_le_of_lt (Nat.sub_le _ _) t.isLt)).2 := by
  rw [outsAt1_B V c t hm]
  dsimp only [ptB1]
  exact soutB_eq c _ _ _ _ _ _ _ _ _ _ _ _ _ _ _ _

theorem out_acc1 (t : Fin cfg1.N) : (outsAt1 V c t.val t.isLt).1 = k0_pay3 (F := Ideal) (outsAt1 V c t.val t.isLt).2 := by
  by_cases hm : t.val % 79 = 0
  · rw [outsAt1_A V c t hm]
    dsimp only [ptA1]
    exact (outA_eq c _ _ _ _ _ _ _ _ _ _ _ _ _ _ _).trans (congrArg k0_pay3 (soutA_eq c _ _ _ _ _ _ _ _ _ _ _ _ _ _ _).symm)
  · rw [outsAt1_B V c t hm]
    dsimp only [ptB1]
    exact (outB_eq c _ _ _ _ _ _ _ _ _ _ _ _ _ _ _ _).trans (congrArg k0_pay3 (soutB_eq c _ _ _ _ _ _ _ _ _ _ _ _ _ _ _ _).symm)

theorem oblk1_emb (t : Fin cfg1.N) (b : Fin 8) (hb : t.val / 79 = b.val) (r : Fin 10112) (f : Fin 64) :
    ((cfg1.win 3).blk t).view.emb (ix3 (0 : Fin 1) r f) = (ix3 b r f : S8x10112x64.Idx) := by
  obtain ⟨-, -, -, -, -, -, -, e7, e8, e9⟩ := idx1_facts t
  refine funext fun a => Fin.ext ?_
  match a with
  | ⟨0, _⟩ => show win1_3.index t (0 : Fin 3) * 1 + 1 * 0 = b.val; omega
  | ⟨1, _⟩ => show win1_3.index t (1 : Fin 3) * 10112 + 1 * r.val = r.val; omega
  | ⟨2, _⟩ => show win1_3.index t (2 : Fin 3) * 64 + 1 * f.val = f.val; omega

/-- The block written back after a batch's last tile is that batch's slab of the dense layer. -/
theorem flushed1_eq (t : Fin cfg1.N) (hf : (cfg1.win 3).flush t = true) :
    (dat1 V c).flushed 3 t
      = ((cfg1.win 3).blk t).view.read (Elt Ideal) (denseE (V c main_v15) (V c main_v17) (V c main_v18)) := by
  have h78 : t.val % 79 = 78 := (flush1_3 t).mp hf
  have hN : cfg1.N = 632 := N_1
  have hb : t.val / 79 < 8 := by have := t.isLt; omega
  show (cfg1.win 3).cut (grid1.coords t) ((dat1 V c).after 3 t) = _
  rw [after1_3]
  funext y
  obtain ⟨z, r, f, rfl⟩ : ∃ (z : Fin 1) (r : Fin 10112) (f : Fin 64), y = ix3 z r f := ⟨y 0, y 1, y 2, eq_ix3 y⟩
  obtain rfl : z = 0 := Subsingleton.elim _ _
  show (outsAt1 V c t.val t.isLt).1 (ix3 (0 : Fin 1) r f)
    = denseE (V c main_v15) (V c main_v17) (V c main_v18) (((cfg1.win 3).blk t).view.emb (ix3 (0 : Fin 1) r f))
  rw [oblk1_emb t ⟨t.val / 79, hb⟩ rfl r f, out_acc1 V c t, pay3_apply _ r f]
  exact dense_last (V c main_v15) (V c main_v17) (V c main_v18) (ablk1 V c) (hblk1 V c) (wblk1 V c)
    (ablk1_apply V c) (hblk1_apply V c) (wblk1_apply V c) (fun n hn => (outsAt1 V c n hn).2) (acc_first1 V c) (acc_later1 V c)
    t ⟨t.val / 79, hb⟩ rfl h78 r f

theorem mem_oblk1 (t : Fin cfg1.N) (i : S8x10112x64.Idx) :
    i ∈ ((cfg1.win 3).blk t).view.set ↔ ∀ a : Fin 3, win1_3.index t a * S1x10112x64.size a ≤ (i a).val ∧ (i a).val < win1_3.index t a * S1x10112x64.size a + S1x10112x64.size a := by
  show i ∈ ((View.whole main_v19).slice (win1_3.rect t)).set ↔ _
  rw [View.set_slice_whole, Rect.mem_set_unit]
  exact Iff.rfl

/-- Every output entry lies in the block written back at its batch's last tile. -/
theorem cover1 (i : S8x10112x64.Idx) :
    ∃ t : Fin cfg1.N, (cfg1.win 3).flush t = true ∧ i ∈ ((cfg1.win 3).blk t).view.set := by
  have hN : cfg1.N = 632 := N_1
  have h0 : (i 0).val < 8 := (i 0).isLt
  have h1 : (i 1).val < 10112 := (i 1).isLt
  have h2 : (i 2).val < 64 := (i 2).isLt
  have ht : 79 * (i 0).val + 78 < cfg1.N := by omega
  refine ⟨⟨79 * (i 0).val + 78, ht⟩, (flush1_3 _).mpr (by show (79 * (i 0).val + 78) % 79 = 78; omega), ?_⟩
  rw [mem_oblk1]
  obtain ⟨-, -, -, -, -, -, -, e7, e8, e9⟩ := idx1_facts ⟨79 * (i 0).val + 78, ht⟩
  have e7' : win1_3.index ⟨79 * (i 0).val + 78, ht⟩ (0 : Fin 3) = (i 0).val := by rw [e7]; show (79 * (i 0).val + 78) / 79 = _; omega
  intro a
  match a with
  | ⟨0, _⟩ => show win1_3.index ⟨79 * (i 0).val + 78, ht⟩ (0 : Fin 3) * 1 ≤ (i 0).val ∧ (i 0).val < win1_3.index ⟨79 * (i 0).val + 78, ht⟩ (0 : Fin 3) * 1 + 1; omega
  | ⟨1, _⟩ => show win1_3.index ⟨79 * (i 0).val + 78, ht⟩ (1 : Fin 3) * 10112 ≤ (i 1).val ∧ (i 1).val < win1_3.index ⟨79 * (i 0).val + 78, ht⟩ (1 : Fin 3) * 10112 + 10112; omega
  | ⟨2, _⟩ => show win1_3.index ⟨79 * (i 0).val + 78, ht⟩ (2 : Fin 3) * 64 ≤ (i 2).val ∧ (i 2).val < win1_3.index ⟨79 * (i 0).val + 78, ht⟩ (2 : Fin 3) * 64 + 64; omega

/-- So the launch's output array is the dense layer of the arrays it was entered with. -/
theorem final1 : (dat1 (F := Ideal) V c).arrAt 3 cfg1.N = Cert.GcnSpec.denseE (V c main_v15) (V c main_v17) (V c main_v18) :=
  (dat1 V c).arrAt_eq_of_cover 3 (denseE (V c main_v15) (V c main_v17) (V c main_v18)) (fun t hf => flushed1_eq V c t hf) cover1

end

end Cert.KernelIdeal.Hand

end
-- ==== Proof.KIdeal.R2Value.lean ====
import proofs.«413038_j6820408066453_1_alg».proof.Proof.KIdeal.Pieces
import proofs.«413038_j6820408066453_1_alg».proof.Proof.KIdeal.R2Data
import proofs.«413038_j6820408066453_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GcnSpec (tileCol linReluP denseE)

/-- The four index maps in closed form: tile `t % 79` of batch `t / 79`. -/
theorem idx2_facts : ∀ t : Fin cfg2.N,
    win2_0.index t (0 : Fin 2) = 0 ∧ win2_0.index t (1 : Fin 2) = t.val % 79
    ∧ win2_1.index t (0 : Fin 3) = t.val / 79 ∧ win2_1.index t (1 : Fin 3) = t.val % 79 ∧ win2_1.index t (2 : Fin 3) = 0
    ∧ win2_2.index t (0 : Fin 2) = 0 ∧ win2_2.index t (1 : Fin 2) = 0
    ∧ win2_3.index t (0 : Fin 3) = t.val / 79 ∧ win2_3.index t (1 : Fin 3) = 0 ∧ win2_3.index t (2 : Fin 3) = 0 :=
  (by decide +kernel : ∀ t : Fin grid2.N, _)

section
variable (V : (c : Dev nD) → (b : Ref sig .tc) → Buf (Elt Ideal) ((c : Thread nD τ).loc b)) (c : Dev nD)

abbrev ablk2 (t : Fin cfg2.N) : Vec Ideal S10112x128 .f32 := iblk2 V c 0 t

abbrev hblk2 (t : Fin cfg2.N) : Vec Ideal S1x128x64 .f32 := iblk2 V c 1 t

abbrev wblk2 (t : Fin cfg2.N) : Vec Ideal S64x64 .f32 := iblk2 V c 2 t

theorem ablk2_apply (t : Fin cfg2.N) (k : Fin 79) (hk : t.val % 79 = k.val) (r : Fin 10112) (c' : Fin 128) :
    ablk2 V c t (ix2 r c') = (V c main_v15 : S10112x10112.Idx → EReal) (ix2 r (tileCol k c')) := by
  obtain ⟨e0, e1, -⟩ := idx2_facts t
  show V c main_v15 (((cfg2.win 0).blk t).view.emb (ix2 r c')) = V c main_v15 (ix2 r (tileCol k c'))
  refine congrArg (V c main_v15) (funext fun a => Fin.ext ?_)
  match a with
  | ⟨0, _⟩ => show win2_0.index t (0 : Fin 2) * 10112 + 1 * r.val = r.val; omega
  | ⟨1, _⟩ => show win2_0.index t (1 : Fin 2) * 128 + 1 * c'.val = 128 * k.val + c'.val; omega

theorem hblk2_apply (t : Fin cfg2.N) (b : Fin 8) (hb : t.val / 79 = b.val) (k : Fin 79) (hk : t.val % 79 = k.val)
    (c' : Fin 128) (d : Fin 64) :
    hblk2 V c t (ix3 (0 : Fin 1) c' d) = (V c main_v19 : S8x10112x64.Idx → EReal) (ix3 b (tileCol k c') d) := by
  obtain ⟨-, -, e2, e3, e4, -⟩ := idx2_facts t
  show V c main_v19 (((cfg2.win 1).blk t).view.emb (ix3 (0 : Fin 1) c' d)) = V c main_v19 (ix3 b (tileCol k c') d)
  refine congrArg (V c main_v19) (funext fun a => Fin.ext ?_)
  match a with
  | ⟨0, _⟩ => show win2_1.index t (0 : Fin 3) * 1 + 1 * 0 = b.val; omega
  | ⟨1, _⟩ => show win2_1.index t (1 : Fin 3) * 128 + 1 * c'.val = 128 * k.val + c'.val; omega
  | ⟨2, _⟩ => show win2_1.index t (2 : Fin 3) * 64 + 1 * d.val = d.val; omega

theorem wblk2_apply (t : Fin cfg2.N) (d f : Fin 64) :
    wblk2 V c t (ix2 d f) = (V c main_v20 : S64x64.Idx → EReal) (ix2 d f) := by
  obtain ⟨-, -, -, -, -, e5, e6, -⟩ := idx2_facts t
  show V c main_v20 (((cfg2.win 2).blk t).view.emb (ix2 d f)) = V c main_v20 (ix2 d f)
  refine congrArg (V c main_v20) (funext fun a => Fin.ext ?_)
  match a with
  | ⟨0, _⟩ => show win2_2.index t (0 : Fin 2) * 64 + 1 * d.val = d.val; omega
  | ⟨1, _⟩ => show win2_2.index t (1 : Fin 2) * 64 + 1 * f.val = f.val; omega

/-- A batch's first tile leaves its payload over a zero accumulator; a later tile adds its payload to what the tile before left. -/
theorem acc_first2 (t : Fin cfg2.N) (hm : t.val % 79 = 0) :
    (outsAt2 V c t.val t.isLt).2 = k0_pay2 (F := Ideal) (hblk2 V c t) (wblk2 V c t) (ablk2 V c t) (k0_pay1 (F := Ideal)) := by
  rw [outsAt2_A V c t hm]
  dsimp only [ptA2]
  exact soutA_eq c _ _ _ _ _ _ _ _ _ _ _ _ _ _ _

theorem acc_later2 (t : Fin cfg2.N) (hm : ¬t.val % 79 = 0) :
    (outsAt2 V c t.val t.isLt).2 = k0_pay2 (F := Ideal) (hblk2 V c t) (wblk2 V c t) (ablk2 V c t)
      (outsAt2 V c (t.val - 1) (Nat.lt_of_le_of_lt (Nat.sub_le _ _) t.isLt)).2 := by
  rw [outsAt2_B V c t hm]
  dsimp only [ptB2]
  exact soutB_eq c _ _ _ _ _ _ _ _ _ _ _ _ _ _ _ _

theorem out_acc2 (t : Fin cfg2.N) : (outsAt2 V c t.val t.isLt).1 = k0_pay3 (F := Ideal) (outsAt2 V c t.val t.isLt).2 := by
  by_cases hm : t.val % 79 = 0
  · rw [outsAt2_A V c t hm]
    dsimp only [ptA2]
    exact (outA_eq c _ _ _ _ _ _ _ _ _ _ _ _ _ _ _).trans (congrArg k0_pay3 (soutA_eq c _ _ _ _ _ _ _ _ _ _ _ _ _ _ _).symm)
  · rw [outsAt2_B V c t hm]
    dsimp only [ptB2]
    exact (outB_eq c _ _ _ _ _ _ _ _ _ _ _ _ _ _ _ _).trans (congrArg k0_pay3 (soutB_eq c _ _ _ _ _ _ _ _ _ _ _ _ _ _ _ _).symm)

theorem oblk2_emb (t : Fin cfg2.N) (b : Fin 8) (hb : t.val / 79 = b.val) (r : Fin 10112) (f : Fin 64) :
    ((cfg2.win 3).blk t).view.emb (ix3 (0 : Fin 1) r f) = (ix3 b r f : S8x10112x64.Idx) := by
  obtain ⟨-, -, -, -, -, -, -, e7, e8, e9⟩ := idx2_facts t
  refine funext fun a => Fin.ext ?_
  match a with
  | ⟨0, _⟩ => show win2_3.index t (0 : Fin 3) * 1 + 1 * 0 = b.val; omega
  | ⟨1, _⟩ => show win2_3.index t (1 : Fin 3) * 10112 + 1 * r.val = r.val; omega
  | ⟨2, _⟩ => show win2_3.index t (2 : Fin 3) * 64 + 1 * f.val = f.val; omega

/-- The block written back after a batch's last tile is that batch's slab of the dense layer. -/
theorem flushed2_eq (t : Fin cfg2.N) (hf : (cfg2.win 3).flush t = true) :
    (dat2 V c).flushed 3 t
      = ((cfg2.win 3).blk t).view.read (Elt Ideal) (denseE (V c main_v15) (V c main_v19) (V c main_v20)) := by
  have h78 : t.val % 79 = 78 := (flush2_3 t).mp hf
  have hN : cfg2.N = 632 := N_2
  have hb : t.val / 79 < 8 := by have := t.isLt; omega
  show (cfg2.win 3).cut (grid2.coords t) ((dat2 V c).after 3 t) = _
  rw [after2_3]
  funext y
  obtain ⟨z, r, f, rfl⟩ : ∃ (z : Fin 1) (r : Fin 10112) (f : Fin 64), y = ix3 z r f := ⟨y 0, y 1, y 2, eq_ix3 y⟩
  obtain rfl : z = 0 := Subsingleton.elim _ _
  show (outsAt2 V c t.val t.isLt).1 (ix3 (0 : Fin 1) r f)
    = denseE (V c main_v15) (V c main_v19) (V c main_v20) (((cfg2.win 3).blk t).view.emb (ix3 (0 : Fin 1) r f))
  rw [oblk2_emb t ⟨t.val / 79, hb⟩ rfl r f, out_acc2 V c t, pay3_apply _ r f]
  exact dense_last (V c main_v15) (V c main_v19) (V c main_v20) (ablk2 V c) (hblk2 V c) (wblk2 V c)
    (ablk2_apply V c) (hblk2_apply V c) (wblk2_apply V c) (fun n hn => (outsAt2 V c n hn).2) (acc_first2 V c) (acc_later2 V c)
    t ⟨t.val / 79, hb⟩ rfl h78 r f

theorem mem_oblk2 (t : Fin cfg2.N) (i : S8x10112x64.Idx) :
    i ∈ ((cfg2.win 3).blk t).view.set ↔ ∀ a : Fin 3, win2_3.index t a * S1x10112x64.size a ≤ (i a).val ∧ (i a).val < win2_3.index t a * S1x10112x64.size a + S1x10112x64.size a := by
  show i ∈ ((View.whole main_v21).slice (win2_3.rect t)).set ↔ _
  rw [View.set_slice_whole, Rect.mem_set_unit]
  exact Iff.rfl

/-- Every output entry lies in the block written back at its batch's last tile. -/
theorem cover2 (i : S8x10112x64.Idx) :
    ∃ t : Fin cfg2.N, (cfg2.win 3).flush t = true ∧ i ∈ ((cfg2.win 3).blk t).view.set := by
  have hN : cfg2.N = 632 := N_2
  have h0 : (i 0).val < 8 := (i 0).isLt
  have h1 : (i 1).val < 10112 := (i 1).isLt
  have h2 : (i 2).val < 64 := (i 2).isLt
  have ht : 79 * (i 0).val + 78 < cfg2.N := by omega
  refine ⟨⟨79 * (i 0).val + 78, ht⟩, (flush2_3 _).mpr (by show (79 * (i 0).val + 78) % 79 = 78; omega), ?_⟩
  rw [mem_oblk2]
  obtain ⟨-, -, -, -, -, -, -, e7, e8, e9⟩ := idx2_facts ⟨79 * (i 0).val + 78, ht⟩
  have e7' : win2_3.index ⟨79 * (i 0).val + 78, ht⟩ (0 : Fin 3) = (i 0).val := by rw [e7]; show (79 * (i 0).val + 78) / 79 = _; omega
  intro a
  match a with
  | ⟨0, _⟩ => show win2_3.index ⟨79 * (i 0).val + 78, ht⟩ (0 : Fin 3) * 1 ≤ (i 0).val ∧ (i 0).val < win2_3.index ⟨79 * (i 0).val + 78, ht⟩ (0 : Fin 3) * 1 + 1; omega
  | ⟨1, _⟩ => show win2_3.index ⟨79 * (i 0).val + 78, ht⟩ (1 : Fin 3) * 10112 ≤ (i 1).val ∧ (i 1).val < win2_3.index ⟨79 * (i 0).val + 78, ht⟩ (1 : Fin 3) * 10112 + 10112; omega
  | ⟨2, _⟩ => show win2_3.index ⟨79 * (i 0).val + 78, ht⟩ (2 : Fin 3) * 64 ≤ (i 2).val ∧ (i 2).val < win2_3.index ⟨79 * (i 0).val + 78, ht⟩ (2 : Fin 3) * 64 + 64; omega

/-- So the launch's output array is the dense layer of the arrays it was entered with. -/
theorem final2 : (dat2 (F := Ideal) V c).arrAt 3 cfg2.N = Cert.GcnSpec.denseE (V c main_v15) (V c main_v19) (V c main_v20) :=
  (dat2 V c).arrAt_eq_of_cover 3 (denseE (V c main_v15) (V c main_v19) (V c main_v20)) (fun t hf => flushed2_eq V c t hf) cover2

end

end Cert.KernelIdeal.Hand

end
-- ==== Proof.KernelScatter.lean ====
import proofs.«413038_j6820408066453_1_alg».proof.KernelIdeal
import proofs.«413038_j6820408066453_1_alg».proof.Proof.Gen.KernelIdeal
import proofs.«413038_j6820408066453_1_alg».proof.Proof.Spec
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

theorem ix1_val {n : Nat} (a : Fin n) (x : Fin 1) : (ix1 a x).val = a.val := by
  match x with | ⟨0, _⟩ => rfl

theorem ix2_eq_iff {n0 n1 : Nat} (a a' : Fin n0) (b b' : Fin n1) :
    ix2 a b = ix2 a' b' ↔ a.val = a'.val ∧ b.val = b'.val := by
  constructor
  · intro h
    exact ⟨congrArg Fin.val (congrFun h (0 : Fin 2)), congrArg Fin.val (congrFun h (1 : Fin 2))⟩
  · rintro ⟨h0, h1⟩
    rw [Fin.ext h0, Fin.ext h1]

theorem siIdx_ix1 (e : Fin 160000) (k : Fin 2)
    (hk : k.val < scatter_S10112x10112_S160000x2_S160000_n_01_01_1.scatterDimsToOperandDims.length) :
    scatter_S10112x10112_S160000x2_S160000_n_01_01_1.siIdx (ix1 e) ⟨k.val, hk⟩ = ix2 e k := by
  funext b
  apply Fin.ext
  match b with
  | ⟨0, _⟩ =>
    unfold ScatterDims.siIdx
    rw [dif_neg (by show ¬(0 = scatter_S10112x10112_S160000x2_S160000_n_01_01_1.indexVectorDim); decide)]
    unfold ScatterDims.siCoord
    exact ix1_val e _
  | ⟨1, _⟩ =>
    unfold ScatterDims.siIdx
    rw [dif_pos (by show 1 = scatter_S10112x10112_S160000x2_S160000_n_01_01_1.indexVectorDim; decide)]

theorem start_ix1 (idx : IVec S160000x2 32) (e : Fin 160000) (a : Fin 2) :
    scatter_S10112x10112_S160000x2_S160000_n_01_01_1.start (ix1 e) idx a = (idx (ix2 e a)).toInt := by
  unfold ScatterDims.start
  match a with
  | ⟨0, _⟩ =>
    rw [dif_pos (by show (0 : Fin 2) ∈ scatter_S10112x10112_S160000x2_S160000_n_01_01_1.scatterDimsToOperandDims; decide)]
    exact congrArg (fun q => (idx q).toInt) (siIdx_ix1 e 0 _)
  | ⟨1, _⟩ =>
    rw [dif_pos (by show (1 : Fin 2) ∈ scatter_S10112x10112_S160000x2_S160000_n_01_01_1.scatterDimsToOperandDims; decide)]
    exact congrArg (fun q => (idx q).toInt) (siIdx_ix1 e 1 _)

theorem window_ix1 (e : Fin 160000) (a : Fin 2) :
    scatter_S10112x10112_S160000x2_S160000_n_01_01_1.window (ix1 e) a = 0 := by
  unfold ScatterDims.window
  match a with
  | ⟨0, _⟩ => exact dif_neg (by show (0 : Fin 2) ∉ scatter_S10112x10112_S160000x2_S160000_n_01_01_1.sKept; decide)
  | ⟨1, _⟩ => exact dif_neg (by show (1 : Fin 2) ∉ scatter_S10112x10112_S160000x2_S160000_n_01_01_1.sKept; decide)

theorem resultIdx_ix1 (idx : IVec S160000x2 32) (e : Fin 160000)
    (h0 : (idx (ix2 e 0)).toNat < 10112) (h1 : (idx (ix2 e 1)).toNat < 10112) :
    scatter_S10112x10112_S160000x2_S160000_n_01_01_1.resultIdx? (ix1 e) idx
      = some (ix2 ⟨(idx (ix2 e 0)).toNat, h0⟩ ⟨(idx (ix2 e 1)).toNat, h1⟩) := by
  have hb : ∀ a : Fin 2, (idx (ix2 e a)).toNat < 10112 := fun a => match a with | ⟨0, _⟩ => h0 | ⟨1, _⟩ => h1
  have hsz : ∀ a : Fin 2, S10112x10112.size a = 10112 := fun a => match a with | ⟨0, _⟩ => rfl | ⟨1, _⟩ => rfl
  have hs : ∀ a : Fin 2,
      scatter_S10112x10112_S160000x2_S160000_n_01_01_1.start (ix1 e) idx a
        + scatter_S10112x10112_S160000x2_S160000_n_01_01_1.window (ix1 e) a = ((idx (ix2 e a)).toNat : ℤ) := by
    intro a
    rw [start_ix1, window_ix1]
    have := BitVec.toInt_eq_toNat_cond (idx (ix2 e a))
    have := hb a
    omega
  unfold ScatterDims.resultIdx?
  rw [dif_pos (fun a => by rw [hs a, hsz a]; have := hb a; exact ⟨by omega, by omega⟩)]
  congr 1
  funext a
  apply Fin.ext
  show (scatter_S10112x10112_S160000x2_S160000_n_01_01_1.start (ix1 e) idx a
        + scatter_S10112x10112_S160000x2_S160000_n_01_01_1.window (ix1 e) a).toNat = _
  rw [hs a, Int.toNat_natCast]
  match a with
  | ⟨0, _⟩ => rfl
  | ⟨1, _⟩ => rfl

theorem idx_col0 (R C : IVec S160000 32) (e : Fin 160000) :
    concatenate S160000x2 1 [⟨S160000x1, broadcastInDim S160000x1 ![0] Facts₀.bcast_S160000_S160000x1_0 R⟩,
        ⟨S160000x1, broadcastInDim S160000x1 ![0] Facts₀.bcast_S160000_S160000x1_0 C⟩]
      Facts₀.concatenates_S160000x1_S160000x1_S160000x2_d1 (ix2 e (0 : Fin 2)) = R (ix1 e) := by
  rw [concatenate_pair_apply_left (t := S160000x2) (s₁ := S160000x1) (s₂ := S160000x1) _ _ _ _ (ix2 e (0 : Fin 2)) rfl (ix2 e (0 : Fin 1))
    (fun b => by match b with | ⟨0, _⟩ => rfl | ⟨1, _⟩ => rfl)]
  exact broadcastInDim_apply _ _ R _ (ix1 e) (fun a => by match a with | ⟨0, _⟩ => rfl)

theorem idx_col1 (R C : IVec S160000 32) (e : Fin 160000) :
    concatenate S160000x2 1 [⟨S160000x1, broadcastInDim S160000x1 ![0] Facts₀.bcast_S160000_S160000x1_0 R⟩,
        ⟨S160000x1, broadcastInDim S160000x1 ![0] Facts₀.bcast_S160000_S160000x1_0 C⟩]
      Facts₀.concatenates_S160000x1_S160000x1_S160000x2_d1 (ix2 e (1 : Fin 2)) = C (ix1 e) := by
  rw [concatenate_pair_apply_right (t := S160000x2) (s₁ := S160000x1) (s₂ := S160000x1) _ _ _ _ (ix2 e (1 : Fin 2)) rfl rfl (ix2 e (0 : Fin 1))
    (fun b hb => by match b with | ⟨0, _⟩ => rfl | ⟨1, _⟩ => exact absurd rfl hb) rfl]
  exact broadcastInDim_apply _ _ C _ (ix1 e) (fun a => by match a with | ⟨0, _⟩ => rfl)

theorem wrap_eq (w z n : IVec S160000 32) (hz : ∀ j, z j = 0#32) (hw : ∀ j, (w j).toNat < 10000) :
    select (cmpi .slt w z) (addi w n) w = w := by
  funext j
  have hlt : (w j).slt 0#32 = false := by
    simp only [BitVec.slt, BitVec.toInt_zero, decide_eq_false_iff_not, Int.not_lt]
    have := BitVec.toInt_eq_toNat_cond (w j)
    have := hw j
    omega
  show (if BitVec.ofBool ((w j).slt (z j)) = 1 then _ else _) = _
  rw [hz j, hlt]
  rfl

theorem scatter_eq_adjE (vals : Cert.GcnSpec.SE.Idx → EReal) (rows cols : Cert.GcnSpec.SE.Idx → BitVec 32)
    (X12 X13 : IVec S160000x1 32)
    (h12 : X12 = broadcastInDim S160000x1 ![0] Facts₀.bcast_S160000_S160000x1_0 rows)
    (h13 : X13 = broadcastInDim S160000x1 ![0] Facts₀.bcast_S160000_S160000x1_0 cols)
    (hr : ∀ e, (rows e).toNat < 10000) (hc : ∀ e, (cols e).toNat < 10000) :
    Host.scatterAdd (F := Ideal) scatter_S10112x10112_S160000x2_S160000_n_01_01_1
      (broadcastInDim S10112x10112 ![] Facts₀.bcast_S_S10112x10112 (constant (F := Ideal) S_ .f32 0x00000000#32))
      (concatenate S160000x2 1 [⟨S160000x1, X12⟩, ⟨S160000x1, X13⟩] Facts₀.concatenates_S160000x1_S160000x1_S160000x2_d1)
      vals = Cert.GcnSpec.adjE vals rows cols := by
  subst h12 h13
  obtain ⟨idx, hidx⟩ : ∃ idx : IVec S160000x2 32, idx = concatenate S160000x2 1
      [⟨S160000x1, broadcastInDim S160000x1 ![0] Facts₀.bcast_S160000_S160000x1_0 rows⟩,
        ⟨S160000x1, broadcastInDim S160000x1 ![0] Facts₀.bcast_S160000_S160000x1_0 cols⟩]
      Facts₀.concatenates_S160000x1_S160000x1_S160000x2_d1 := ⟨_, rfl⟩
  have hcol0 : ∀ e : Fin 160000, idx (ix2 e (0 : Fin 2)) = rows (ix1 e) := fun e => by rw [hidx]; exact idx_col0 rows cols e
  have hcol1 : ∀ e : Fin 160000, idx (ix2 e (1 : Fin 2)) = cols (ix1 e) := fun e => by rw [hidx]; exact idx_col1 rows cols e
  rw [← hidx]
  funext i
  obtain ⟨r, cc, rfl⟩ : ∃ (r cc : Fin 10112), i = ix2 r cc := ⟨i 0, i 1, eq_ix2 i⟩
  simp only [Host.scatterAdd, Ideal.hostScatterAdd_def, Ideal.hostScatterAdd]
  rw [broadcastInDim_scalar_apply, constant_apply, Ideal.ofBits_zero_f32, zero_add, Finset.sum_filter]
  show _ = ∑ e : Fin 160000, if (rows (ix1 e)).toNat = r.val ∧ (cols (ix1 e)).toNat = cc.val then vals (ix1 e) else 0
  refine Fintype.sum_equiv idxEquiv1 _ _ (fun j => ?_)
  obtain ⟨e, rfl⟩ : ∃ e : Fin 160000, j = ix1 e := ⟨j 0, eq_ix1 j⟩
  show _ = if (rows (ix1 e)).toNat = r.val ∧ (cols (ix1 e)).toNat = cc.val then vals (ix1 e) else 0
  have hr' := hr (ix1 e)
  have hc' := hc (ix1 e)
  rw [resultIdx_ix1 idx e (by rw [hcol0]; omega) (by rw [hcol1]; omega)]
  refine if_congr ?_ rfl rfl
  rw [Option.some_inj, ix2_eq_iff]
  show (idx (ix2 e (0 : Fin 2))).toNat = r.val ∧ (idx (ix2 e (1 : Fin 2))).toNat = cc.val ↔ _
  rw [hcol0, hcol1]

end Cert.KernelIdeal.HostValue

end
-- ==== Proof.KernelHost.lean ====
import proofs.«413038_j6820408066453_1_alg».proof.Proof.Gen.KernelIdeal.Regions
import proofs.«413038_j6820408066453_1_alg».proof.Proof.Spec
import proofs.«413038_j6820408066453_1_alg».proof.Proof.KernelScatter
import Idealize.ShloMosaic.Lib.StableHlo.Run
import Idealize.ShloMosaic.Lib.ValueIdx
import Idealize.ShloMosaic.Lib.ValueIdxRank1
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (outs : Outs (F := Ideal)) (c : Dev nD)

theorem V4_arg2 : V4 m outs c main_arg2 = m ((c : Thread nD τ).loc main_arg2) :=
  (V4_of m outs c main_arg2 (by decide)).trans <| (V3_of m c main_arg2 (by decide)).trans <|
    (V2_of m c main_arg2 (by decide)).trans <| (V1_of m c main_arg2 (by decide)).trans rfl

theorem V6_arg3 : V6 m outs c main_arg3 = m ((c : Thread nD τ).loc main_arg3) :=
  (V6_of m outs c main_arg3 (by decide)).trans <| (V5_of m outs c main_arg3 (by decide)).trans <|
    (V4_of m outs c main_arg3 (by decide)).trans <| (V3_of m c main_arg3 (by decide)).trans <|
    (V2_of m c main_arg3 (by decide)).trans <| (V1_of m c main_arg3 (by decide)).trans rfl

theorem V5_adj : V5 m outs c main_v15 = V3 m c main_v15 :=
  (V5_of m outs c main_v15 (by decide)).trans (V4_of m outs c main_v15 (by decide))

theorem V5_h : V5 m outs c main_v17 = outs 4 main_v17 c :=
  (V5_of m outs c main_v17 (by decide)).trans (by simp only [V4, Function.update_self])

theorem V7_adj : V7 m outs c main_v15 = V3 m c main_v15 :=
  (V7_of m outs c main_v15 (by decide)).trans <| (V6_of m outs c main_v15 (by decide)).trans (V5_adj m outs c)

theorem V7_h : V7 m outs c main_v19 = outs 6 main_v19 c :=
  (V7_of m outs c main_v19 (by decide)).trans (by simp only [V6, Function.update_self])

theorem V8_h : V8 m outs c main_v21 = outs 8 main_v21 c := by simp only [V8, Function.update_self]

theorem transpose_eq_transpE (W : Cert.GcnSpec.SW.Idx → EReal) :
    transpose S64x64 [1, 0] W Facts₀.transposes_S64x64_S64x64_1_0 = Cert.GcnSpec.transpE W := by
  funext i
  obtain ⟨d, f, rfl⟩ : ∃ (d f : Fin 64), i = ix2 d f := ⟨i 0, i 1, eq_ix2 i⟩
  exact transpose_ix2_apply W _ d f

theorem V3_w0 : V3 m c main_v16 = Cert.GcnSpec.transpE (m ((c : Thread nD τ).loc main_arg1)) := by
  show StableHlo.after hostOps0_2 (V2 m c) (Proc.devRef .tc main_v16) = _
  after_results
  exact transpose_eq_transpE _

theorem V5_w1 : V5 m outs c main_v18 = Cert.GcnSpec.transpE (m ((c : Thread nD τ).loc main_arg2)) := by
  show StableHlo.after hostOps1 (V4 m outs c) (Proc.devRef .tc main_v18) = _
  after_results
  rw [V4_arg2]
  exact transpose_eq_transpE _

theorem V7_w2 : V7 m outs c main_v20 = Cert.GcnSpec.transpE (m ((c : Thread nD τ).loc main_arg3)) := by
  show StableHlo.after hostOps2 (V6 m outs c) (Proc.devRef .tc main_v20) = _
  after_results
  rw [V6_arg3]
  exact transpose_eq_transpE _

theorem slice_eq_sliceE (y : Cert.GcnSpec.SXp.Idx → EReal) :
    extractStridedSlice S8x10000x64 ![0, 0, 0] y Facts₀.slices_S8x10112x64_S8x10000x64_0_0_0 = Cert.GcnSpec.sliceE y := by
  funext i
  obtain ⟨b, n, f, rfl⟩ : ∃ (b : Fin 8) (n : Fin 10000) (f : Fin 64), i = ix3 b n f := ⟨i 0, i 1, i 2, eq_ix3 i⟩
  exact slice3_axis1_apply 0 y _ b n f ⟨n.val, by have := n.isLt; omega⟩ (by simp)

theorem V9_out : V9 m outs c main_v22 = Cert.GcnSpec.sliceE (outs 8 main_v21 c) := by
  show StableHlo.after hostOps3 (V8 m outs c) (Proc.devRef .tc main_v22) = _
  after_results
  rw [V8_h]
  exact slice_eq_sliceE _

theorem pad_eq_padE (x : Cert.GcnSpec.SX.Idx → EReal) (z : IVec S_ 32) (hz : z ix0 = 0#32) :
    pad S8x10112x64 ![0, 0, 0] ![0, 112, 0] ![0, 0, 0] x (sitofp (F := Ideal) .f32 z)
      Facts₀.pads_S8x10000x64_S8x10112x64_000_01120_000 Facts₀.h_S_ = Cert.GcnSpec.padE x := by
  funext i
  obtain ⟨b, n, f, rfl⟩ : ∃ (b : Fin 8) (n : Fin 10112) (f : Fin 64), i = ix3 b n f := ⟨i 0, i 1, i 2, eq_ix3 i⟩
  by_cases hn : n.val < 10000
  · have : Cert.GcnSpec.padE x (ix3 b n f) = x (ix3 b ⟨n.val, hn⟩ f) := by
      simp only [Cert.GcnSpec.padE]; exact dif_pos hn
    rw [this]
    refine pad_apply_of_inside _ _ _ x _ _ _ _ (ix3 b ⟨n.val, hn⟩ f) (fun a => ?_)
    match a with
    | ⟨0, _⟩ => simp
    | ⟨1, _⟩ => simp
    | ⟨2, _⟩ => simp
  · have : Cert.GcnSpec.padE x (ix3 b n f) = 0 := by
      simp only [Cert.GcnSpec.padE]; exact dif_neg hn
    rw [this, pad_apply_of_not_inside _ _ _ x _ _ _ (ix3 b n f) (1 : Fin 3)
      (by show ¬(0 ≤ n.val ∧ (n.val - 0) % (0 + 1) = 0 ∧ (n.val - 0) / (0 + 1) < 10000); omega),
      sitofp_apply, eq_ix0 (Shape.Idx.first _), hz]
    show (((0#32 : BitVec 32).toInt : ℝ) : EReal) = 0
    simp

theorem V3_pad : V3 m c main_v0 = Cert.GcnSpec.padE (m ((c : Thread nD τ).loc main_arg0)) := by
  refine (V3_of m c main_v0 (by decide)).trans ?_
  show StableHlo.after hostOps0_1 (V1 m c) (Proc.devRef .tc main_v0) = _
  after_results
  exact pad_eq_padE _ _ rfl

set_option maxHeartbeats 8000000 in

theorem V3_adj (hrows : ∀ e, (m ((c : Thread nD τ).loc main_arg5) e).toNat < 10000)
    (hcols : ∀ e, (m ((c : Thread nD τ).loc main_arg6) e).toNat < 10000) :
    V3 m c main_v15 = Cert.GcnSpec.adjE (m ((c : Thread nD τ).loc main_arg4)) (m ((c : Thread nD τ).loc main_arg5))
      (m ((c : Thread nD τ).loc main_arg6)) := by
  show StableHlo.after hostOps0_2 (V2 m c) (Proc.devRef .tc main_v15) = _
  after_results_simp
  refine scatter_eq_adjE (m ((c : Thread nD τ).loc main_arg4)) (m ((c : Thread nD τ).loc main_arg5))
    (m ((c : Thread nD τ).loc main_arg6)) _ _ ?_ ?_ hrows hcols
  · after_results_simp
    refine congrArg (fun v : IVec S160000 32 =>
      (broadcastInDim S160000x1 ![0] Facts₀.bcast_S160000_S160000x1_0 v : IVec S160000x1 32)) ?_
    exact wrap_eq (m ((c : Thread nD τ).loc main_arg5))
      (broadcastInDim S160000 ![] Facts₀.bcast_S_S160000 (constantI S_ 32 0#32))
      (broadcastInDim S160000 ![] Facts₀.bcast_S_S160000 (constantI S_ 32 10112#32)) (fun j => rfl) hrows
  · after_results_simp
    refine congrArg (fun v : IVec S160000 32 =>
      (broadcastInDim S160000x1 ![0] Facts₀.bcast_S160000_S160000x1_0 v : IVec S160000x1 32)) ?_
    exact wrap_eq (m ((c : Thread nD τ).loc main_arg6))
      (broadcastInDim S160000 ![] Facts₀.bcast_S_S160000 (constantI S_ 32 0#32))
      (broadcastInDim S160000 ![] Facts₀.bcast_S_S160000 (constantI S_ 32 10112#32)) (fun j => rfl) hcols

end Cert.KernelIdeal.HostValue

end
-- ==== Proof.Algebra.lean ====
import proofs.«413038_j6820408066453_1_alg».proof.Proof.Spec
import Mathlib.Data.EReal.Basic
import Mathlib.Data.EReal.Operations
import Mathlib.Data.Fintype.BigOperators
import Mathlib.Logic.Equiv.Fin.Basic
import Mathlib.Algebra.BigOperators.Group.Finset.Sigma
import Mathlib.Algebra.BigOperators.Group.Finset.Basic

noncomputable section

namespace Cert.GcnSpec

open Idealize.ShloMosaic

def IsReal {α : Type} (g : α → EReal) : Prop := ∀ i, ∃ r : ℝ, g i = (r : EReal)

theorem real_sum {ι : Type} (s : Finset ι) (g : ι → EReal) (hg : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := hg a (Finset.mem_insert_self a s)
    obtain ⟨t, ht⟩ := ih (fun i hi => hg i (Finset.mem_insert_of_mem hi))
    exact ⟨r + t, by rw [Finset.sum_insert ha, hr, ht, EReal.coe_add]⟩

theorem real_mul (a b : EReal) (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem real_max_zero (a : EReal) (ha : ∃ r : ℝ, a = (r : EReal)) : ∃ r : ℝ, max a 0 = (r : EReal) := by
  obtain ⟨r, rfl⟩ := ha
  rcases le_total (r : EReal) 0 with h | h
  · exact ⟨0, by rw [max_eq_right h, EReal.coe_zero]⟩
  · exact ⟨r, by rw [max_eq_left h]⟩

theorem sum_mul_real {ι : Type} (s : Finset ι) (g : ι → EReal) (l : EReal)
    (hg : ∀ i ∈ s, ∃ r : ℝ, g i = (r : EReal)) (hl : ∃ r : ℝ, l = (r : EReal)) :
    (∑ i ∈ s, g i) * l = ∑ i ∈ s, g i * l := by
  classical
  obtain ⟨t, rfl⟩ := hl
  induction s using Finset.induction_on with
  | empty => simp
  | insert a s ha ih =>
    have hs : ∀ i ∈ s, ∃ r : ℝ, g i = (r : EReal) := fun i hi => hg i (Finset.mem_insert_of_mem hi)
    obtain ⟨r, hr⟩ := hg a (Finset.mem_insert_self a s)
    obtain ⟨u, hu⟩ := real_sum s g hs
    rw [Finset.sum_insert ha, Finset.sum_insert ha, ← ih hs, hr, hu]
    exact_mod_cast add_mul r u t

theorem isReal_linReluP (h : SXp.Idx → EReal) (Wt : SW.Idx → EReal) (hh : IsReal h) (hW : IsReal Wt)
    (b : Fin 8) (n : Fin 10112) (f : Fin 64) : ∃ r : ℝ, linReluP h Wt b n f = (r : EReal) :=
  real_max_zero _ (real_sum _ _ fun d _ => real_mul _ _ (hh _) (hW _))

theorem isReal_adjE (vals : SE.Idx → EReal) (rows cols : SE.Idx → BitVec 32) (hv : IsReal vals) :
    IsReal (adjE vals rows cols) := by
  intro i
  refine real_sum _ _ fun e _ => ?_
  split_ifs
  · exact hv _
  · exact ⟨0, EReal.coe_zero.symm⟩

theorem isReal_denseE (A : SA.Idx → EReal) (h : SXp.Idx → EReal) (Wt : SW.Idx → EReal)
    (hA : IsReal A) (hh : IsReal h) (hW : IsReal Wt) : IsReal (denseE A h Wt) := fun i =>
  real_sum _ _ fun k _ => real_sum _ _ fun c' _ => real_mul _ _ (hA _) (isReal_linReluP h Wt hh hW _ _ _)

theorem isReal_padE (x : SX.Idx → EReal) (hx : IsReal x) : IsReal (padE x) := by
  intro i
  unfold padE
  split_ifs
  · exact hx _
  · exact ⟨0, EReal.coe_zero.symm⟩

theorem isReal_transpE (W : SW.Idx → EReal) (hW : IsReal W) : IsReal (transpE W) := fun _ => hW _

theorem sum_tileCol {M : Type} [AddCommMonoid M] (F : Fin 10112 → M) :
    ∑ k : Fin 79, ∑ c' : Fin 128, F (tileCol k c') = ∑ c : Fin 10112, F c := by
  rw [← Fintype.sum_prod_type']
  refine Fintype.sum_equiv (finProdFinEquiv : Fin 79 × Fin 128 ≃ Fin (79 * 128)) _ _ fun p => ?_
  congr 1
  apply Fin.ext
  simp only [tileCol, finProdFinEquiv_apply_val]
  omega

theorem denseE_apply (A : SA.Idx → EReal) (h : SXp.Idx → EReal) (Wt : SW.Idx → EReal)
    (b : Fin 8) (n : Fin 10112) (f : Fin 64) :
    denseE A h Wt (ValueIdx.ix3 b n f) = ∑ c : Fin 10112, A (ValueIdx.ix2 n c) * linReluP h Wt b c f :=
  sum_tileCol (fun c => A (ValueIdx.ix2 n c) * linReluP h Wt b c f)

theorem adj_row_sum (vals : SE.Idx → EReal) (rows cols : SE.Idx → BitVec 32) (hvals : IsReal vals)
    (hcols : ∀ e, (cols e).toNat < 10000) (r : Fin 10112) (L : Fin 10112 → EReal)
    (hL : ∀ c, ∃ t : ℝ, L c = (t : EReal)) :
    ∑ c : Fin 10112, adjE vals rows cols (ValueIdx.ix2 r c) * L c
      = ∑ e : Fin 160000, if (rows (ValueIdx.ix1 e)).toNat = r.val then
          L ⟨(cols (ValueIdx.ix1 e)).toNat, by have := hcols (ValueIdx.ix1 e); omega⟩ * vals (ValueIdx.ix1 e)
        else 0 := by

  have h1 : ∀ c : Fin 10112, adjE vals rows cols (ValueIdx.ix2 r c) * L c
      = ∑ e : Fin 160000, if (rows (ValueIdx.ix1 e)).toNat = r.val ∧ (cols (ValueIdx.ix1 e)).toNat = c.val
          then vals (ValueIdx.ix1 e) * L c else 0 := by
    intro c
    have h0 : adjE vals rows cols (ValueIdx.ix2 r c)
        = ∑ e : Fin 160000, if (rows (ValueIdx.ix1 e)).toNat = r.val ∧ (cols (ValueIdx.ix1 e)).toNat = c.val
            then vals (ValueIdx.ix1 e) else 0 := rfl
    rw [h0, sum_mul_real _ _ _ (fun e _ => by
      split_ifs
      · exact hvals _
      · exact ⟨0, EReal.coe_zero.symm⟩) (hL c)]
    refine Finset.sum_congr rfl fun e _ => ?_
    split_ifs
    · rfl
    · exact zero_mul _
  rw [Finset.sum_congr rfl (fun c _ => h1 c), Finset.sum_comm]
  refine Finset.sum_congr rfl fun e _ => ?_

  by_cases hr : (rows (ValueIdx.ix1 e)).toNat = r.val
  · rw [if_pos hr, Finset.sum_eq_single
      (⟨(cols (ValueIdx.ix1 e)).toNat, by have := hcols (ValueIdx.ix1 e); omega⟩ : Fin 10112)]
    · rw [if_pos ⟨hr, rfl⟩, mul_comm]
    · intro c _ hc
      rw [if_neg]
      rintro ⟨_, h⟩
      exact hc (Fin.ext h.symm)
    · intro h
      exact absurd (Finset.mem_univ _) h
  · rw [if_neg hr]
    exact Finset.sum_eq_zero fun c _ => if_neg (fun h => hr h.1)

theorem dense_row_eq_sparse (hp : SXp.Idx → EReal) (W : SW.Idx → EReal) (vals : SE.Idx → EReal)
    (rows cols : SE.Idx → BitVec 32) (hhp : IsReal hp) (hW : IsReal W) (hvals : IsReal vals)
    (hcols : ∀ e, (cols e).toNat < 10000) (b : Fin 8) (r : Fin 10000) (f : Fin 64) :
    denseE (adjE vals rows cols) hp (transpE W) (ValueIdx.ix3 b ⟨r.val, by have := r.isLt; omega⟩ f)
      = sparseE (sliceE hp) W vals rows cols (ValueIdx.ix3 b r f) := by
  rw [denseE_apply]
  refine (adj_row_sum vals rows cols hvals hcols _ (fun c => linReluP hp (transpE W) b c f)
    (fun c => isReal_linReluP hp (transpE W) hhp (isReal_transpE W hW) b c f)).trans ?_
  simp only [sparseE]
  refine Finset.sum_congr rfl fun e _ => ?_

  have hc : colOf cols e = ⟨(cols (ValueIdx.ix1 e)).toNat, hcols _⟩ := by
    apply Fin.ext
    have := hcols (ValueIdx.ix1 e)
    simp only [colOf]
    omega
  rw [hc]
  rfl

theorem sliceE_denseE (hp : SXp.Idx → EReal) (W : SW.Idx → EReal) (vals : SE.Idx → EReal)
    (rows cols : SE.Idx → BitVec 32) (hhp : IsReal hp) (hW : IsReal W) (hvals : IsReal vals)
    (hcols : ∀ e, (cols e).toNat < 10000) :
    sliceE (denseE (adjE vals rows cols) hp (transpE W)) = sparseE (sliceE hp) W vals rows cols := by
  funext i
  obtain ⟨b, n, f, rfl⟩ : ∃ (b : Fin 8) (n : Fin 10000) (f : Fin 64), i = ValueIdx.ix3 b n f :=
    ⟨i 0, i 1, i 2, ValueIdx.eq_ix3 i⟩
  exact dense_row_eq_sparse hp W vals rows cols hhp hW hvals hcols b n f

theorem sliceE_padE (x : SX.Idx → EReal) : sliceE (padE x) = x := by
  funext i
  obtain ⟨b, n, f, rfl⟩ : ∃ (b : Fin 8) (n : Fin 10000) (f : Fin 64), i = ValueIdx.ix3 b n f :=
    ⟨i 0, i 1, i 2, ValueIdx.eq_ix3 i⟩
  exact dif_pos n.isLt

theorem kernelE_eq_referenceE (x : SX.Idx → EReal) (W0 W1 W2 : SW.Idx → EReal) (vals : SE.Idx → EReal) (rows cols : SE.Idx → BitVec 32)
    (hx : ∀ i, ∃ r : ℝ, x i = (r : EReal)) (hW0 : ∀ i, ∃ r : ℝ, W0 i = (r : EReal)) (hW1 : ∀ i, ∃ r : ℝ, W1 i = (r : EReal)) (hW2 : ∀ i, ∃ r : ℝ, W2 i = (r : EReal))
    (hvals : ∀ i, ∃ r : ℝ, vals i = (r : EReal))
    (hrows : ∀ e, (rows e).toNat < 10000) (hcols : ∀ e, (cols e).toNat < 10000) :
    kernelE x W0 W1 W2 vals rows cols = referenceE x W0 W1 W2 vals rows cols := by
  have hA : IsReal (adjE vals rows cols) := isReal_adjE vals rows cols hvals
  have h0 : IsReal (padE x) := isReal_padE x hx
  have h1 : IsReal (denseE (adjE vals rows cols) (padE x) (transpE W0)) :=
    isReal_denseE _ _ _ hA h0 (isReal_transpE W0 hW0)
  have h2 : IsReal (denseE (adjE vals rows cols) (denseE (adjE vals rows cols) (padE x) (transpE W0)) (transpE W1)) :=
    isReal_denseE _ _ _ hA h1 (isReal_transpE W1 hW1)
  unfold kernelE referenceE
  rw [sliceE_denseE _ W2 vals rows cols h2 hW2 hvals hcols, sliceE_denseE _ W1 vals rows cols h1 hW1 hvals hcols,
    sliceE_denseE _ W0 vals rows cols h0 hW0 hvals hcols, sliceE_padE]

end Cert.GcnSpec

end
-- ==== Proof.KIdeal.Result.lean ====
import proofs.«413038_j6820408066453_1_alg».proof.Proof.KIdeal.Launch
import proofs.«413038_j6820408066453_1_alg».proof.Proof.KIdeal.R0Value
import proofs.«413038_j6820408066453_1_alg».proof.Proof.KIdeal.R1Value
import proofs.«413038_j6820408066453_1_alg».proof.Proof.KIdeal.R2Value
import proofs.«413038_j6820408066453_1_alg».proof.Proof.KernelHost
import proofs.«413038_j6820408066453_1_alg».proof.Proof.Algebra

noncomputable section

namespace Cert.KernelIdeal.Hand

open Cert.KernelIdeal Cert.KernelIdeal.Gen Cert.KernelIdeal.HostValue Cert.GcnSpec
open Idealize.ShloMosaic Idealize.ShloMosaic.TcCoe Idealize.SL.Sem

variable (m : (ℓ : Loc nD τ sig) → Buf (Elt Ideal) ℓ) (c : Dev nD)

abbrev adjOf : SA.Idx → EReal := adjE (m ((c : Thread nD τ).loc main_arg4)) (m ((c : Thread nD τ).loc main_arg5)) (m ((c : Thread nD τ).loc main_arg6))

theorem o0_eq (hrows : ∀ e, ((m ((c : Thread nD τ).loc main_arg5)) e).toNat < 10000) (hcols : ∀ e, ((m ((c : Thread nD τ).loc main_arg6)) e).toNat < 10000) :
    o0 m c = denseE (adjOf m c) (padE (m ((c : Thread nD τ).loc main_arg0))) (transpE (m ((c : Thread nD τ).loc main_arg1))) := by
  unfold o0
  rw [final0]
  show denseE (V3 m c main_v15) (V3 m c main_v0) (V3 m c main_v16) = _
  rw [V3_adj m c hrows hcols, V3_pad, V3_w0]

theorem o1_eq (hrows : ∀ e, ((m ((c : Thread nD τ).loc main_arg5)) e).toNat < 10000) (hcols : ∀ e, ((m ((c : Thread nD τ).loc main_arg6)) e).toNat < 10000) :
    o1 m c = denseE (adjOf m c) (o0 m c) (transpE (m ((c : Thread nD τ).loc main_arg2))) := by
  unfold o1
  rw [final1]
  show denseE (V5 m (outsA m) c main_v15) (V5 m (outsA m) c main_v17) (V5 m (outsA m) c main_v18) = _
  rw [V5_adj, V5_h, V5_w1, outsA_17, V3_adj m c hrows hcols]

theorem o2_eq (hrows : ∀ e, ((m ((c : Thread nD τ).loc main_arg5)) e).toNat < 10000) (hcols : ∀ e, ((m ((c : Thread nD τ).loc main_arg6)) e).toNat < 10000) :
    o2 m c = denseE (adjOf m c) (o1 m c) (transpE (m ((c : Thread nD τ).loc main_arg3))) := by
  unfold o2
  rw [final2]
  show denseE (V7 m (outsB m) c main_v15) (V7 m (outsB m) c main_v19) (V7 m (outsB m) c main_v20) = _
  rw [V7_adj, V7_h, V7_w2, outsB_19, V3_adj m c hrows hcols]

theorem result_eq
    (hx : ∀ i, ∃ r : ℝ, (m ((c : Thread nD τ).loc main_arg0)) i = (r : EReal)) (hW0 : ∀ i, ∃ r : ℝ, (m ((c : Thread nD τ).loc main_arg1)) i = (r : EReal))
    (hW1 : ∀ i, ∃ r : ℝ, (m ((c : Thread nD τ).loc main_arg2)) i = (r : EReal)) (hW2 : ∀ i, ∃ r : ℝ, (m ((c : Thread nD τ).loc main_arg3)) i = (r : EReal))
    (hvals : ∀ i, ∃ r : ℝ, (m ((c : Thread nD τ).loc main_arg4)) i = (r : EReal))
    (hrows : ∀ e, ((m ((c : Thread nD τ).loc main_arg5)) e).toNat < 10000) (hcols : ∀ e, ((m ((c : Thread nD τ).loc main_arg6)) e).toNat < 10000) :
    V9 m (outs m) c main_v22 = referenceE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V9_out, outs_21, o2_eq m c hrows hcols, o1_eq m c hrows hcols, o0_eq m c hrows hcols]
  exact kernelE_eq_referenceE _ _ _ _ _ _ _ hx hW0 hW1 hW2 hvals hrows hcols

end Cert.KernelIdeal.Hand

end
-- ==== Proof.RefValue.lean ====
import proofs.«413038_j6820408066453_1_alg».proof.Proof.Gen.ReferenceIdeal.Read
import proofs.«413038_j6820408066453_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

theorem toInt_of_small (w : BitVec 32) (h : w.toNat < 10000) : w.toInt = (w.toNat : Int) :=
  BitVec.toInt_eq_toNat_of_lt (by omega)

theorem wrap_eq (w : BitVec 32) (h : w.toNat < 10000) :
    Scalar.select (IntOp.cmpi .slt w 0#32) (IntOp.addi w 10000#32) w = w := by
  have hs : w.slt 0#32 = false := by
    rw [BitVec.slt, toInt_of_small w h]
    simp
  unfold Scalar.select IntOp.cmpi
  simp [hs]

abbrev gaD : GatherDims S8x10000x64 S160000x1 S8x160000x64 := gather_S8x10000x64_S160000x1_S8x160000x64_02_1_n_n_1_1_8164

theorem ga_siIdx (b : Fin 8) (e : Fin 160000) (f : Fin 64) (c : Fin gaD.startIndexMap.length) :
    gaD.siIdx (ix3 b e f) c = ix2 e (0 : Fin 1) := by
  funext a
  refine Fin.ext ?_
  match a with
  | ⟨0, _⟩ => rfl
  | ⟨1, h1⟩ =>
    have hc : c.val = 0 := by
      have h := c.isLt
      have hl : gaD.startIndexMap.length = 1 := rfl
      omega
    show (gaD.siIdx (ix3 b e f) c ⟨1, h1⟩).val = 0
    unfold GatherDims.siIdx
    rw [dif_pos (show ((⟨1, h1⟩ : Fin S160000x1.rank) : ℕ) = gaD.indexVectorDim from rfl)]
    exact hc

theorem gather_read {α : Type} (x : S8x10000x64.Idx → α) (idx : IVec S160000x1 32) (b : Fin 8) (e : Fin 160000) (f : Fin 64) :
    Host.gather gaD x idx (ix3 b e f)
      = x (ix3 b ⟨min (idx (ix2 e (0 : Fin 1))).toInt.toNat 9999, by omega⟩ f) := by
  unfold Host.gather
  congr 1
  funext a
  refine Fin.ext ?_
  show gaD.start (ix3 b e f) idx a + gaD.batchCoord (ix3 b e f) a + gaD.offCoord (ix3 b e f) a = _
  rw [GatherDims.batchCoord_eq_zero _ _ _ List.not_mem_nil, Nat.add_zero]
  match a with
  | ⟨0, h0⟩ =>
    unfold GatherDims.start GatherDims.offCoord
    rw [dif_neg (show ¬ (⟨0, by decide⟩ : Fin S8x10000x64.rank) ∈ gaD.startIndexMap by decide),
      dif_pos (show (⟨0, by decide⟩ : Fin S8x10000x64.rank) ∈ gaD.sKept by decide), Nat.zero_add]
    rfl
  | ⟨1, h1⟩ =>
    unfold GatherDims.start GatherDims.offCoord
    rw [dif_pos (show (⟨1, by decide⟩ : Fin S8x10000x64.rank) ∈ gaD.startIndexMap by decide),
      dif_neg (show ¬ (⟨1, by decide⟩ : Fin S8x10000x64.rank) ∈ gaD.sKept by decide), ga_siIdx, Nat.add_zero]
    rfl
  | ⟨2, h2⟩ =>
    unfold GatherDims.start GatherDims.offCoord
    rw [dif_neg (show ¬ (⟨2, by decide⟩ : Fin S8x10000x64.rank) ∈ gaD.startIndexMap by decide),
      dif_pos (show (⟨2, by decide⟩ : Fin S8x10000x64.rank) ∈ gaD.sKept by decide), Nat.zero_add]
    rfl

abbrev scD : ScatterDims S8x10000x64 S160000x1 S8x160000x64 := scatter_S8x10000x64_S160000x1_S8x160000x64_02_1_1_1

theorem sc_siIdx (b : Fin 8) (e : Fin 160000) (f : Fin 64) (c : Fin scD.scatterDimsToOperandDims.length) :
    scD.siIdx (ix3 b e f) c = ix2 e (0 : Fin 1) := by
  funext a
  refine Fin.ext ?_
  match a with
  | ⟨0, _⟩ => rfl
  | ⟨1, h1⟩ =>
    have hc : c.val = 0 := by
      have h := c.isLt
      have hl : scD.scatterDimsToOperandDims.length = 1 := rfl
      omega
    show (scD.siIdx (ix3 b e f) c ⟨1, h1⟩).val = 0
    unfold ScatterDims.siIdx
    rw [dif_pos (show ((⟨1, h1⟩ : Fin S160000x1.rank) : ℕ) = scD.indexVectorDim from rfl)]
    exact hc

variable (idx : IVec S160000x1 32) (b : Fin 8) (e : Fin 160000) (f : Fin 64)

theorem sc_start0 : scD.start (ix3 b e f) idx ⟨0, by decide⟩ = 0 := by
  unfold ScatterDims.start
  rw [dif_neg (show ¬ (⟨0, by decide⟩ : Fin S8x10000x64.rank) ∈ scD.scatterDimsToOperandDims by decide)]

theorem sc_start1 : scD.start (ix3 b e f) idx ⟨1, by decide⟩ = (idx (ix2 e (0 : Fin 1))).toInt := by
  unfold ScatterDims.start
  rw [dif_pos (show (⟨1, by decide⟩ : Fin S8x10000x64.rank) ∈ scD.scatterDimsToOperandDims by decide), sc_siIdx]

theorem sc_start2 : scD.start (ix3 b e f) idx ⟨2, by decide⟩ = 0 := by
  unfold ScatterDims.start
  rw [dif_neg (show ¬ (⟨2, by decide⟩ : Fin S8x10000x64.rank) ∈ scD.scatterDimsToOperandDims by decide)]

theorem sc_window0 : scD.window (ix3 b e f) ⟨0, by decide⟩ = b.val := by
  unfold ScatterDims.window
  rw [dif_pos (show (⟨0, by decide⟩ : Fin S8x10000x64.rank) ∈ scD.sKept by decide)]
  rfl

theorem sc_window1 : scD.window (ix3 b e f) ⟨1, by decide⟩ = 0 := by
  unfold ScatterDims.window
  rw [dif_neg (show ¬ (⟨1, by decide⟩ : Fin S8x10000x64.rank) ∈ scD.sKept by decide)]

theorem sc_window2 : scD.window (ix3 b e f) ⟨2, by decide⟩ = f.val := by
  unfold ScatterDims.window
  rw [dif_pos (show (⟨2, by decide⟩ : Fin S8x10000x64.rank) ∈ scD.sKept by decide)]
  rfl

theorem scatter_lands (h : (idx (ix2 e (0 : Fin 1))).toNat < 10000) :
    scD.resultIdx? (ix3 b e f) idx = some (ix3 b ⟨(idx (ix2 e (0 : Fin 1))).toNat, h⟩ f) := by
  have hi := toInt_of_small _ h
  have hb := b.isLt
  have hf := f.isLt
  have hall : ∀ a, 0 ≤ scD.start (ix3 b e f) idx a + scD.window (ix3 b e f) a ∧
      scD.start (ix3 b e f) idx a + scD.window (ix3 b e f) a < S8x10000x64.size a := by
    intro a
    match a with
    | ⟨0, _⟩ =>
      rw [sc_start0, sc_window0]
      show (0 : Int) ≤ 0 + (b.val : Int) ∧ (0 : Int) + (b.val : Int) < ((8 : Nat) : Int)
      omega
    | ⟨1, _⟩ =>
      rw [sc_start1, sc_window1, hi]
      show (0 : Int) ≤ _ + ((0 : Nat) : Int) ∧ _ + ((0 : Nat) : Int) < ((10000 : Nat) : Int)
      omega
    | ⟨2, _⟩ =>
      rw [sc_start2, sc_window2]
      show (0 : Int) ≤ 0 + (f.val : Int) ∧ (0 : Int) + (f.val : Int) < ((64 : Nat) : Int)
      omega
  unfold ScatterDims.resultIdx?
  rw [dif_pos hall]
  congr 1
  funext a
  refine Fin.ext ?_
  match a with
  | ⟨0, h0⟩ =>
    show (scD.start (ix3 b e f) idx ⟨0, h0⟩ + (scD.window (ix3 b e f) ⟨0, h0⟩ : Nat)).toNat = b.val
    rw [sc_start0, sc_window0]; omega
  | ⟨1, h1⟩ =>
    show (scD.start (ix3 b e f) idx ⟨1, h1⟩ + (scD.window (ix3 b e f) ⟨1, h1⟩ : Nat)).toNat = (idx (ix2 e (0 : Fin 1))).toNat
    rw [sc_start1, sc_window1, hi]; omega
  | ⟨2, h2⟩ =>
    show (scD.start (ix3 b e f) idx ⟨2, h2⟩ + (scD.window (ix3 b e f) ⟨2, h2⟩ : Nat)).toNat = f.val
    rw [sc_start2, sc_window2]; omega

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

theorem ix3_inj {n0 n1 n2 : Nat} {a a' : Fin n0} {b b' : Fin n1} {c c' : Fin n2} (h : ix3 a b c = ix3 a' b' c') :
    a = a' ∧ b = b' ∧ c = c' := by
  have h0 : ix3 a b c ⟨0, show 0 < 3 by omega⟩ = ix3 a' b' c' ⟨0, show 0 < 3 by omega⟩ := congrFun h _
  have h1 : ix3 a b c ⟨1, show 1 < 3 by omega⟩ = ix3 a' b' c' ⟨1, show 1 < 3 by omega⟩ := congrFun h _
  have h2 : ix3 a b c ⟨2, show 2 < 3 by omega⟩ = ix3 a' b' c' ⟨2, show 2 < 3 by omega⟩ := congrFun h _
  exact ⟨h0, h1, h2⟩

theorem scatter_sum (hidx : ∀ e : Fin 160000, (idx (ix2 e (0 : Fin 1))).toNat < 10000)
    (upd : S8x160000x64.Idx → EReal) (r : Fin 10000)
    [DecidablePred fun j => scD.resultIdx? j idx = some (ix3 b r f)] :
    ∑ j ∈ Finset.univ.filter (fun j => scD.resultIdx? j idx = some (ix3 b r f)), upd j
      = ∑ e : Fin 160000, if (idx (ix2 e (0 : Fin 1))).toNat = r.val then upd (ix3 b e f) else 0 := by
  have key : ∀ (b' : Fin 8) (e : Fin 160000) (f' : Fin 64),
      scD.resultIdx? (ix3 b' e f') idx = some (ix3 b r f) ↔
        (b' = b ∧ (idx (ix2 e (0 : Fin 1))).toNat = r.val ∧ f' = f) := by
    intro b' e f'
    rw [scatter_lands idx b' e f' (hidx e)]
    constructor
    · intro h
      obtain ⟨h0, h1, h2⟩ := ix3_inj (Option.some.inj h)
      exact ⟨h0, congrArg Fin.val h1, h2⟩
    · rintro ⟨h0, h1, h2⟩
      have hr : (⟨(idx (ix2 e (0 : Fin 1))).toNat, hidx e⟩ : Fin 10000) = r := Fin.ext h1
      rw [h0, hr, h2]
  rw [Finset.sum_filter, sum_idx3 (n0 := 8) (n1 := 160000) (n2 := 64), Finset.sum_eq_single b]
  · refine Finset.sum_congr rfl fun e _ => ?_
    rw [Finset.sum_eq_single f]
    · refine if_congr ?_ rfl rfl
      rw [key]
      exact ⟨fun h => h.2.1, fun h => ⟨rfl, h, rfl⟩⟩
    · intro f' _ hf
      exact if_neg fun h => hf ((key b e f').1 h).2.2
    · intro h; exact absurd (Finset.mem_univ _) h
  · intro b' _ hb
    exact Finset.sum_eq_zero fun e _ => Finset.sum_eq_zero fun f' _ => if_neg fun h => hb ((key b' e f').1 h).1
  · intro h; exact absurd (Finset.mem_univ _) h

section Layer

variable (h : (⟨S8x10000x64, .f32⟩ : BufTy).Contents (Elt Ideal)) (W : (⟨S64x64, .f32⟩ : BufTy).Contents (Elt Ideal))
  (vals : (⟨S160000, .f32⟩ : BufTy).Contents (Elt Ideal)) (rows cols : (⟨S160000, .i32⟩ : BufTy).Contents (Elt Ideal))

theorem rows_col (hrows : ∀ e, (rows e).toNat < 10000) (e : Fin 160000) :
    val_main_v19 (F := Ideal) rows (ix2 e (0 : Fin 1)) = rows (ix1 e) := by
  rw [val_main_v19_apply, val_main_v18_apply, val_main_v15_apply, val_main_v17_apply, val_main_v14_apply, val_main_v16_apply,
    val_main_c_1_apply, val_main_c_2_apply]
  have hi : idx_main_v19 (ix2 e (0 : Fin 1)) = ix1 e := by
    funext a; match a with | ⟨0, _⟩ => rfl
  rw [hi]
  exact wrap_eq _ (hrows (ix1 e))

theorem cols_col (hcols : ∀ e, (cols e).toNat < 10000) (e : Fin 160000) :
    val_main_v8 (F := Ideal) cols (ix2 e (0 : Fin 1)) = cols (ix1 e) := by
  rw [val_main_v8_apply, val_main_v7_apply, val_main_v4_apply, val_main_v6_apply, val_main_v3_apply, val_main_v5_apply,
    val_main_c_apply, val_main_c_0_apply]
  have hi : idx_main_v8 (ix2 e (0 : Fin 1)) = ix1 e := by
    funext a; match a with | ⟨0, _⟩ => rfl
  rw [hi]
  exact wrap_eq _ (hcols (ix1 e))

theorem clamp_small (w : BitVec 32) (hw : w.toNat < 10000) : min w.toInt.toNat 9999 = min w.toNat 9999 := by
  rw [toInt_of_small w hw, Int.toNat_natCast]

theorem dense_read (b : Fin 8) (n : Fin 10000) (f : Fin 64) :
    val_main_v2 (F := Ideal) h W (ix3 b n f) = max (∑ d : Fin 64, h (ix3 b n d) * W (ix2 f d)) 0 := by
  rw [val_main_v2_apply, val_main_v1_apply, val_main_call0_v0_apply, val_main_call0_cst_apply]
  show max _ (Ideal.ofBits .f32 0x00000000#32) = _
  rw [Ideal.ofBits_zero_f32]
  congr 1
  refine Finset.sum_congr rfl fun d _ => ?_
  rw [val_main_v0_apply]
  have hl : lidx_main_v1 (ix3 b n f) d = ix3 b n d := by
    funext a; match a with | ⟨0, _⟩ => rfl | ⟨1, _⟩ => rfl | ⟨2, _⟩ => rfl
  have hr : idx_main_v0 (ridx_main_v1 (ix3 b n f) d) = ix2 f d := by
    funext a; match a with | ⟨0, _⟩ => rfl | ⟨1, _⟩ => rfl
  rw [hl, hr]

theorem upd_read (hcols : ∀ e, (cols e).toNat < 10000) (b : Fin 8) (e : Fin 160000) (f : Fin 64) :
    val_main_v12 (F := Ideal) h W vals cols (ix3 b e f)
      = max (∑ d : Fin 64, h (ix3 b (Cert.GcnSpec.colOf cols e) d) * W (ix2 f d)) 0 * vals (ix1 e) := by
  rw [val_main_v12_apply]
  show val_main_v9 (F := Ideal) h W cols (ix3 b e f) * val_main_v11 (F := Ideal) vals (ix3 b e f) = _
  congr 1
  · unfold val_main_v9
    rw [gather_read]
    have hn : (⟨min (val_main_v8 (F := Ideal) cols (ix2 e (0 : Fin 1))).toInt.toNat 9999, by omega⟩ : Fin 10000)
        = Cert.GcnSpec.colOf cols e := by
      refine Fin.ext ?_
      show min (val_main_v8 (F := Ideal) cols (ix2 e (0 : Fin 1))).toInt.toNat 9999 = min (cols (ix1 e)).toNat 9999
      rw [cols_col cols hcols e, clamp_small _ (hcols (ix1 e))]
    rw [hn, dense_read]
  · rw [val_main_v11_apply, val_main_v10_apply]
    congr 1
    funext a; match a with | ⟨0, _⟩ => rfl

theorem layer_eq (hrows : ∀ e, (rows e).toNat < 10000) (hcols : ∀ e, (cols e).toNat < 10000) :
    val_main_v20 (F := Ideal) h W vals rows cols = Cert.GcnSpec.sparseE h W vals rows cols := by
  funext i
  obtain ⟨b, r, f, rfl⟩ : ∃ (b : Fin 8) (r : Fin 10000) (f : Fin 64), i = ix3 b r f := ⟨i 0, i 1, i 2, eq_ix3 i⟩
  show Ideal.hostScatterAdd scD (val_main_v13 (F := Ideal)) (val_main_v19 (F := Ideal) rows)
    (val_main_v12 (F := Ideal) h W vals cols) (ix3 b r f) = _
  unfold Ideal.hostScatterAdd
  beta_reduce
  rw [scatter_sum _ b f (fun e => by rw [rows_col rows hrows e]; exact hrows (ix1 e)),
    val_main_v13_apply, val_main_cst_apply]
  show Ideal.ofBits .f32 0x00000000#32 + _ = _
  rw [Ideal.ofBits_zero_f32, zero_add]
  unfold Cert.GcnSpec.sparseE
  refine Finset.sum_congr rfl fun e _ => ?_
  rw [rows_col rows hrows e, upd_read h W vals cols hcols]

end Layer

theorem v41_eq (x0 : (⟨S8x10000x64, .f32⟩ : BufTy).Contents (Elt Ideal)) (x1 x2 : (⟨S64x64, .f32⟩ : BufTy).Contents (Elt Ideal))
    (x4 : (⟨S160000, .f32⟩ : BufTy).Contents (Elt Ideal)) (x5 x6 : (⟨S160000, .i32⟩ : BufTy).Contents (Elt Ideal)) :
    val_main_v41 (F := Ideal) x0 x1 x2 x4 x5 x6
      = val_main_v20 (F := Ideal) (val_main_v20 (F := Ideal) x0 x1 x4 x5 x6) x2 x4 x5 x6 := rfl

theorem v62_eq (x0 : (⟨S8x10000x64, .f32⟩ : BufTy).Contents (Elt Ideal)) (x1 x2 x3 : (⟨S64x64, .f32⟩ : BufTy).Contents (Elt Ideal))
    (x4 : (⟨S160000, .f32⟩ : BufTy).Contents (Elt Ideal)) (x5 x6 : (⟨S160000, .i32⟩ : BufTy).Contents (Elt Ideal)) :
    val_main_v62 (F := Ideal) x0 x1 x2 x3 x4 x5 x6
      = val_main_v20 (F := Ideal) (val_main_v41 (F := Ideal) x0 x1 x2 x4 x5 x6) x3 x4 x5 x6 := rfl

theorem val_eq (x0 : (⟨S8x10000x64, .f32⟩ : BufTy).Contents (Elt Ideal)) (x1 x2 x3 : (⟨S64x64, .f32⟩ : BufTy).Contents (Elt Ideal))
    (x4 : (⟨S160000, .f32⟩ : BufTy).Contents (Elt Ideal)) (x5 x6 : (⟨S160000, .i32⟩ : BufTy).Contents (Elt Ideal))
    (hrows : ∀ e, (x5 e).toNat < 10000) (hcols : ∀ e, (x6 e).toNat < 10000) :
    Cert.ReferenceIdeal.Read.val_main_v62 (F := Ideal) x0 x1 x2 x3 x4 x5 x6 = Cert.GcnSpec.referenceE x0 x1 x2 x3 x4 x5 x6 := by
  rw [v62_eq, v41_eq, layer_eq _ _ _ _ _ hrows hcols, layer_eq _ _ _ _ _ hrows hcols, layer_eq _ _ _ _ _ hrows hcols]
  rfl

end Cert.ReferenceIdeal.RefValue

end
-- ==== Proof.PreDecode.lean ====
import proofs.«413038_j6820408066453_1_alg».proof.Pre_finite_inputs
import proofs.«413038_j6820408066453_1_alg».proof.Proof.Gen.Pre_finite_inputs
import proofs.«413038_j6820408066453_1_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreRead

open Idealize.ShloMosaic
open Cert.Pre_finite_inputs

instance : Subsingleton S_.Idx := ⟨fun a b => funext fun d => d.elim0⟩

theorem inf_pattern : Ideal.ofBits .f32 0x7F800000#32 = (⊤ : EReal) := by simp [Ideal.ofBits, Ideal.ieee]

theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

theorem real_of_entry {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_pattern] at h'
  exact real_of_abs_lt_top (x i) h'

theorem toNat_lt_of_signed_range (w : BitVec 32) (h0 : IntOp.cmpi .sge w 0#32 = 1#1) (h1 : IntOp.cmpi .slt w 10000#32 = 1#1) :
    w.toNat < 10000 := by
  rw [IntOp.cmpi_sge] at h0
  rw [IntOp.cmpi_slt] at h1
  have e0 : (0#32 : BitVec 32).toInt = 0 := by decide
  have e1 : (10000#32 : BitVec 32).toInt = 10000 := by decide
  have hc := BitVec.toInt_eq_toNat_cond w
  have hl := w.isLt
  omega

theorem range_of_entry {s : Shape} (hb : S_.BroadcastsInDim s (![] : Fin 0 → Fin s.rank)) (x : IVec s 32) (e : s.Idx)
    (h0 : cmpi .sge x (broadcastInDim s ![] hb (constantI S_ 32 0#32)) e = 1#1)
    (h1 : cmpi .slt x (broadcastInDim s ![] hb (constantI S_ 32 10000#32)) e = 1#1) : (x e).toNat < 10000 :=
  toNat_lt_of_signed_range (x e) h0 h1

theorem of_pre [Facts]
    (a0 : FVec Ideal S8x10000x64 .f32) (a1 a2 a3 : FVec Ideal S64x64 .f32) (a4 : FVec Ideal S160000 .f32)
    (a5 a6 : IVec S160000 32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ e, (a5 e).toNat < 10000) ∧ (∀ e, (a6 e).toNat < 10000) := by
  have h0 := congrFun h ValueIdx.ix0
  dsimp only [fn, fn_part1, fn_part2] at h0
  simp only [andi, IntOp.andi_eq_one] at h0
  obtain ⟨⟨⟨⟨⟨⟨⟨⟨e0, e1⟩, e2⟩, e3⟩, e4⟩, e5l⟩, e5u⟩, e6l⟩, e6u⟩ := h0
  refine ⟨fun i => ?_, fun i => ?_, fun i => ?_, fun i => ?_, fun i => ?_, fun e => ?_, fun e => ?_⟩
  · exact real_of_entry _ a0 i (Host.reduce_andi_all _ _ _ _ _ e0 i)
  · exact real_of_entry _ a1 i (Host.reduce_andi_all _ _ _ _ _ e1 i)
  · exact real_of_entry _ a2 i (Host.reduce_andi_all _ _ _ _ _ e2 i)
  · exact real_of_entry _ a3 i (Host.reduce_andi_all _ _ _ _ _ e3 i)
  · exact real_of_entry _ a4 i (Host.reduce_andi_all _ _ _ _ _ e4 i)
  · exact range_of_entry _ a5 e (Host.reduce_andi_all _ _ _ _ _ e5l e) (Host.reduce_andi_all _ _ _ _ _ e5u e)
  · exact range_of_entry _ a6 e (Host.reduce_andi_all _ _ _ _ _ e6l e) (Host.reduce_andi_all _ _ _ _ _ e6u e)

end Cert.PreRead

end
-- ==== Proof.lean ====
import proofs.«413038_j6820408066453_1_alg».proof.Defs
import proofs.«413038_j6820408066453_1_alg».proof.Proof.Gen.Kernel
import proofs.«413038_j6820408066453_1_alg».proof.Proof.Gen.KernelIdeal
import proofs.«413038_j6820408066453_1_alg».proof.Proof.Gen.ReferenceIdeal
import proofs.«413038_j6820408066453_1_alg».proof.Proof.Gen.ReferenceIdeal.Run
import proofs.«413038_j6820408066453_1_alg».proof.Proof.Gen.ReferenceIdeal.Read
import proofs.«413038_j6820408066453_1_alg».proof.Proof.Gen.Pre_finite_inputs
import proofs.«413038_j6820408066453_1_alg».proof.Proof.KBits.Launch
import proofs.«413038_j6820408066453_1_alg».proof.Proof.KIdeal.Result
import proofs.«413038_j6820408066453_1_alg».proof.Proof.RefValue
import proofs.«413038_j6820408066453_1_alg».proof.Proof.PreDecode

noncomputable section

namespace Cert.Proof

open Idealize.ShloMosaic Idealize.ShloMosaic.TcCoe Idealize.SL.Sem

theorem frame_k : Cert.frame_Kernel := fun m ρ _ => Cert.Kernel.Hand.frame_main (F := Bits) m ρ

theorem frame_ki : Cert.frame_KernelIdeal := fun m ρ _ =>
  (θ_run Cert.KernelIdeal.defs _ _).mono (fun _ h c => (h c).2) (Cert.KernelIdeal.Hand.run_main (F := Ideal) m ρ)

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's function of the agreeing arguments in their result buffers. -/
theorem algebraic : Cert.algebraic_KernelIdeal_ReferenceIdeal := by
  intro m ρ m' ρ' hpre hagree
  have hp := fun c => Cert.PreRead.of_pre _ _ _ _ _ _ _ (hpre c)
  refine ⟨fun c => Cert.GcnSpec.referenceE
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Hand.run_main (F := Ideal) m ρ)
    obtain ⟨h0, h1, h2, h3, h4, h5, h6⟩ := hp c
    exact Cert.KernelIdeal.Hand.result_eq m c h0 h1 h2 h3 h4 h5 h6
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hp c
    obtain ⟨e0, e1, e2, e3, e4, e5, e6⟩ := hagree c
    rw [Cert.ReferenceIdeal.Read.val_main_v62_eq, e0, e1, e2, e3, e4, e5, e6]
    exact Cert.ReferenceIdeal.RefValue.val_eq _ _ _ _ _ _ _ h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
